-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x10 : Shape := ⟨2, ![1024, 10]⟩
abbrev S64x11 : Shape := ⟨2, ![64, 11]⟩
abbrev S64 : Shape := ⟨1, ![64]⟩
abbrev S128x64 : Shape := ⟨2, ![128, 64]⟩
abbrev S128 : Shape := ⟨1, ![128]⟩
abbrev S64x138 : Shape := ⟨2, ![64, 138]⟩
abbrev S64x128 : Shape := ⟨2, ![64, 128]⟩
abbrev S10x64 : Shape := ⟨2, ![10, 64]⟩
abbrev S10 : Shape := ⟨1, ![10]⟩
abbrev S_ : Shape := ⟨0, ![]⟩

class Facts : Prop where
  bcast_S_S1024x10 : S_.BroadcastsInDim S1024x10 (![] : Fin 0 → Fin S1024x10.rank)
  reducesTo_S1024x10_S_d0_1 : S1024x10.ReducesTo [0, 1] S_
  h_S_ : 0 < S_.numel
  bcast_S_S64x11 : S_.BroadcastsInDim S64x11 (![] : Fin 0 → Fin S64x11.rank)
  reducesTo_S64x11_S_d0_1 : S64x11.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x138 : S_.BroadcastsInDim S64x138 (![] : Fin 0 → Fin S64x138.rank)
  reducesTo_S64x138_S_d0_1 : S64x138.ReducesTo [0, 1] S_
  bcast_S_S64x128 : S_.BroadcastsInDim S64x128 (![] : Fin 0 → Fin S64x128.rank)
  reducesTo_S64x128_S_d0_1 : S64x128.ReducesTo [0, 1] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64 .f32) (main_arg12 : FVec F S10x64 .f32) (main_arg13 : FVec F S10 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S10x64 .f32 := Host.absf main_arg12
  let main_cst_22 : FVec F S_ .f32 := constant S_ .f32 0x7F800000#32
  let main_v60 : FVec F S10x64 .f32 := broadcastInDim S10x64 ![] bcast_S_S10x64 main_cst_22
  let main_v61 : IVec S10x64 1 := cmpf .olt main_v59 main_v60
  let main_c_23 : IVec S_ 1 := constantI S_ 1 1#1
  let main_v62 : IVec S_ 1 := (fun x v => Host.reduce IntOp.andi x v reducesTo_S10x64_S_d0_1 h_S_) main_v61 main_c_23
  let main_v63 : IVec S_ 1 := andi main_v58 main_v62
  let main_v64 : FVec F S10 .f32 := Host.absf main_arg13
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg7 : FVec F S64 .f32) (main_arg8 : FVec F S128x64 .f32) (main_arg9 : FVec F S128 .f32) (main_arg10 : FVec F S64x128 .f32) (main_arg11 : FVec F S64 .f32) (main_arg12 : FVec F S10x64 .f32) (main_arg13 : FVec F S10 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_arg11 main_arg12 main_arg13 main_v48 main_v49 main_v50

def fn_part1 {F : FTy → Type} [FloatOps F] (main_arg4 : FVec F S128x64 .f32) (main_arg5 : FVec F S128 .f32) (main_arg6 : FVec F S64x138 .f32) (main_arg7 : FVec F S64 .f32) (main_arg8 : FVec F S128x64 .f32) (main_arg9 : FVec F S128 .f32) (main_arg10 : FVec F S64x128 .f32) (main_arg11 : FVec F S64 .f32) (main_arg12 : FVec F S10x64 .f32) (main_arg13 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x138 .f32 := Host.absf main_arg6
  let main_cst_10 : FVec F S_ .f32 := constant S_ .f32 0x7F800000#32
  let main_v30 : FVec F S64x138 .f32 := broadcastInDim S64x138 ![] bcast_S_S64x138 main_cst_10
  let main_v31 : IVec S64x138 1 := cmpf .olt main_v29 main_v30
  let main_c_11 : IVec S_ 1 := constantI S_ 1 1#1
  let main_v32 : IVec S_ 1 := (fun x v => Host.reduce IntOp.andi x v reducesTo_S64x138_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1024x10 .f32) (main_arg1 : FVec F S1024x10 .f32) (main_arg2 : FVec F S64x11 .f32) (main_arg3 : FVec F S64 .f32) (main_arg4 : FVec F S128x64 .f32) (main_arg5 : FVec F S128 .f32) (main_arg6 : FVec F S64x138 .f32) (main_arg7 : FVec F S64 .f32) (main_arg8 : FVec F S128x64 .f32) (main_arg9 : FVec F S128 .f32) (main_arg10 : FVec F S64x128 .f32) (main_arg11 : FVec F S64 .f32) (main_arg12 : FVec F S10x64 .f32) (main_arg13 : FVec F S10 .f32) : IVec S_ 1 :=
  let main_v0 : FVec F S1024x10 .f32 := Host.absf main_arg0
  let main_cst : FVec F S_ .f32 := constant S_ .f32 0x7F800000#32
  let main_v1 : FVec F S1024x10 .f32 := broadcastInDim S1024x10 ![] bcast_S_S1024x10 main_cst
  let main_v2 : IVec S1024x10 1 := cmpf .olt main_v0 main_v1
  let main_c : IVec S_ 1 := constantI S_ 1 1#1
  let main_v3 : IVec S_ 1 := (fun x v => Host.reduce IntOp.andi x v reducesTo_S1024x10_S_d0_1 h_S_) main_v2 main_c
  let main_v4 : FVec F S1024x10 .f32 := Host.absf main_arg1
  let main_cst_0 : FVec F S_ .f32 := constant S_ .f32 0x7F800000#32
  let main_v5 : FVec F S1024x10 .f32 := broadcastInDim S1024x10 ![] bcast_S_S1024x10 main_cst_0
  let main_v6 : IVec S1024x10 1 := cmpf .olt main_v4 main_v5
  let main_c_1 : IVec S_ 1 := constantI S_ 1 1#1
  let main_v7 : IVec S_ 1 := (fun x v => Host.reduce IntOp.andi x v reducesTo_S1024x10_S_d0_1 h_S_) main_v6 main_c_1
  let main_v8 : IVec S_ 1 := andi main_v3 main_v7
  let main_v9 : FVec F S64x11 .f32 := Host.absf main_arg2
  let main_cst_2 : FVec F S_ .f32 := constant S_ .f32 0x7F800000#32
  let main_v10 : FVec F S64x11 .f32 := broadcastInDim S64x11 ![] bcast_S_S64x11 main_cst_2
  let main_v11 : IVec S64x11 1 := cmpf .olt main_v9 main_v10
  let main_c_3 : IVec S_ 1 := constantI S_ 1 1#1
  let main_v12 : IVec S_ 1 := (fun x v => Host.reduce IntOp.andi x v reducesTo_S64x11_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S1024x10 : Shape := ⟨2, ![1024, 10]⟩
abbrev S64x11 : Shape := ⟨2, ![64, 11]⟩
abbrev S64 : Shape := ⟨1, ![64]⟩
abbrev S128x64 : Shape := ⟨2, ![128, 64]⟩
abbrev S128 : Shape := ⟨1, ![128]⟩
abbrev S64x138 : Shape := ⟨2, ![64, 138]⟩
abbrev S64x128 : Shape := ⟨2, ![64, 128]⟩
abbrev S10x64 : Shape := ⟨2, ![10, 64]⟩
abbrev S10 : Shape := ⟨1, ![10]⟩
abbrev S11x64 : Shape := ⟨2, ![11, 64]⟩
abbrev S138x64 : Shape := ⟨2, ![138, 64]⟩
abbrev S64x10 : Shape := ⟨2, ![64, 10]⟩
abbrev S128x10 : Shape := ⟨2, ![128, 10]⟩
abbrev S128x128 : Shape := ⟨2, ![128, 128]⟩
abbrev S128x1x10 : Shape := ⟨3, ![128, 1, 10]⟩
abbrev S1x64x10 : Shape := ⟨3, ![1, 64, 10]⟩
abbrev S128x64x10 : Shape := ⟨3, ![128, 64, 10]⟩
abbrev S128x64x1 : Shape := ⟨3, ![128, 64, 1]⟩
abbrev S128x64x11 : Shape := ⟨3, ![128, 64, 11]⟩
abbrev S128x64x3 : Shape := ⟨3, ![128, 64, 3]⟩
abbrev S8192x11 : Shape := ⟨2, ![8192, 11]⟩
abbrev S8192x64 : Shape := ⟨2, ![8192, 64]⟩
abbrev S1x64 : Shape := ⟨2, ![1, 64]⟩
abbrev S8192x128 : Shape := ⟨2, ![8192, 128]⟩
abbrev S1x128 : Shape := ⟨2, ![1, 128]⟩
abbrev S128x64x128 : Shape := ⟨3, ![128, 64, 128]⟩
abbrev S128x138 : Shape := ⟨2, ![128, 138]⟩
abbrev S1x10 : Shape := ⟨2, ![1, 10]⟩

abbrev nBuf : Space → Nat
  | .hbm => 21
  | .vmem => 21
  | .smem => 0
  | _ => 0

abbrev bufTy : (tb : Table) → Fin (tcTables nBuf tb) → BufTy
  | .hbm, ⟨0, _⟩ => ⟨S1024x10, .f32⟩
  | .hbm, ⟨1, _⟩ => ⟨S1024x10, .f32⟩
  | .hbm, ⟨2, _⟩ => ⟨S64x11, .f32⟩
  | .hbm, ⟨3, _⟩ => ⟨S64, .f32⟩
  | .hbm, ⟨4, _⟩ => ⟨S128x64, .f32⟩
  | .hbm, ⟨5, _⟩ => ⟨S128, .f32⟩
  | .hbm, ⟨6, _⟩ => ⟨S64x138, .f32⟩
  | .hbm, ⟨7, _⟩ => ⟨S64, .f32⟩
  | .hbm, ⟨8, _⟩ => ⟨S128x64, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S10x64, .f32⟩
  | .hbm, ⟨13, _⟩ => ⟨S10, .f32⟩
  | .hbm, ⟨14, _⟩ => ⟨S11x64, .f32⟩
  | .hbm, ⟨15, _⟩ => ⟨S64x128, .f32⟩
  | .hbm, ⟨16, _⟩ => ⟨S138x64, .f32⟩
  | .hbm, ⟨17, _⟩ => ⟨S64x128, .f32⟩
  | .hbm, ⟨18, _⟩ => ⟨S128x64, .f32⟩
  | .hbm, ⟨19, _⟩ => ⟨S64x10, .f32⟩
  | .hbm, ⟨20, _⟩ => ⟨S1024x10, .f32⟩
  | .local _ .vmem, ⟨0, _⟩ => ⟨S128x10, .f32⟩
  | .local _ .vmem, ⟨1, _⟩ => ⟨S128x10, .f32⟩
  | .local _ .vmem, ⟨2, _⟩ => ⟨S64x10, .f32⟩
  | .local _ .vmem, ⟨3, _⟩ => ⟨S64x10, .f32⟩
  | .local _ .vmem, ⟨4, _⟩ => ⟨S128x10, .f32⟩
  | .local _ .vmem, ⟨5, _⟩ => ⟨S128x10, .f32⟩
  | .local _ .vmem, ⟨6, _⟩ => ⟨S11x64, .f32⟩
  | .local _ .vmem, ⟨7, _⟩ => ⟨S64, .f32⟩
  | .local _ .vmem, ⟨8, _⟩ => ⟨S64x128, .f32⟩
  | .local _ .vmem, ⟨9, _⟩ => ⟨S128, .f32⟩
  | .local _ .vmem, ⟨10, _⟩ => ⟨S138x64, .f32⟩
  | .local _ .vmem, ⟨11, _⟩ => ⟨S64, .f32⟩
  | .local _ .vmem, ⟨12, _⟩ => ⟨S64x128, .f32⟩
  | .local _ .vmem, ⟨13, _⟩ => ⟨S128, .f32⟩
  | .local _ .vmem, ⟨14, _⟩ => ⟨S128x64, .f32⟩
  | .local _ .vmem, ⟨15, _⟩ => ⟨S64, .f32⟩
  | .local _ .vmem, ⟨16, _⟩ => ⟨S64x10, .f32⟩
  | .local _ .vmem, ⟨17, _⟩ => ⟨S10, .f32⟩
  | .local _ .vmem, ⟨18, _⟩ => ⟨S128x10, .f32⟩
  | .local _ .vmem, ⟨19, _⟩ => ⟨S128x10, .f32⟩
  | .local _ .vmem, ⟨20, _⟩ => ⟨S128x128, .f32⟩
  | _, _ => ⟨S1024x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v64 : BitVec 1 := Scalar.cmpi .eq arg1 c15_i32
  let v65 : BitVec 32 := Scalar.extui v64
  let c0_i32_20 : BitVec 32 := 0#32
  let v66 : BitVec 1 := Scalar.cmpi .ne v65 c0_i32_20
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S11x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S138x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S128x10 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

class Facts₀ : Prop where
  transposes_S64x11_S11x64_1_0 : S64x11.Transposes [1, 0] S11x64
  transposes_S128x64_S64x128_1_0 : S128x64.Transposes [1, 0] S64x128
  transposes_S64x138_S138x64_1_0 : S64x138.Transposes [1, 0] S138x64
  transposes_S64x128_S128x64_1_0 : S64x128.Transposes [1, 0] S128x64
  transposes_S10x64_S64x10_1_0 : S10x64.Transposes [1, 0] S64x10
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x10_S128x10_0_0 : ∀ a, (![0, 0] : Fin 2 → Nat) a + S128x10.size a ≤ S128x10.size a
  h_S128x10 : 0 < S128x10.numel
  inb_S64x10_S64x10_0_0 : ∀ a, (![0, 0] : Fin 2 → Nat) a + S64x10.size a ≤ S64x10.size a
  h_S64x10 : 0 < S64x10.numel
  shapeCasts_S128x10_S128x1x10 : S128x10.ShapeCasts S128x1x10
  shapeCasts_S64x10_S1x64x10 : S64x10.ShapeCasts S1x64x10
  broadcasts_S128x1x10_S128x64x10 : S128x1x10.Broadcasts S128x64x10
  broadcasts_S1x64x10_S128x64x10 : S1x64x10.Broadcasts S128x64x10
  iota_S128x64_d0_w32 : S128x64.Iotas .tc 32 [0]
  iota_S128x64_d1_w32 : S128x64.Iotas .tc 32 [1]
  natLt_1_32 : 1 < 32
  shapeCasts_S128x64_S128x64x1 : S128x64.ShapeCasts S128x64x1
  concatenates_S128x64x10_S128x64x1_S128x64x11_d2 : Shape.Concatenates [S128x64x10, S128x64x1] S128x64x11 2
  slices_S128x64x10_o0_0_0_S128x64x3 : S128x64x10.Slices ![0, 0, 0] S128x64x3
  reduces_S128x64x3_S128x64 : S128x64x3.Reduces [2] S128x64
  shapeCasts_S128x64x11_S8192x11 : S128x64x11.ShapeCasts S8192x11
  bitsLt_bf16_f32 : FTy.bits .bf16 < FTy.bits .f32
  inb_S11x64_S11x64_0_0 : ∀ a, (![0, 0] : Fin 2 → Nat) a + S11x64.size a ≤ S11x64.size a
  h_S11x64 : 0 < S11x64.numel
  shapeCasts_S11x64_S11x64 : S11x64.ShapeCasts S11x64
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S128x64x128 : S8192x128.ShapeCasts S128x64x128
  broadcasts_S128x64x1_S128x64x128 : S128x64x1.Broadcasts S128x64x128
  reduces_S128x64x128_S128x128 : S128x64x128.Reduces [1] S128x128
  concatenates_S128x128_S128x10_S128x138_d1 : Shape.Concatenates [S128x128, S128x10] S128x138 1
  inb_S138x64_S138x64_0_0 : ∀ a, (![0, 0] : Fin 2 → Nat) a + S138x64.size a ≤ S138x64.size a
  h_S138x64 : 0 < S138x64.numel
  shapeCasts_S138x64_S138x64 : S138x64.ShapeCasts S138x64
  broadcasts_S1x64_S128x64 : S1x64.Broadcasts S128x64
  broadcasts_S1x128_S128x128 : S1x128.Broadcasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S64x10_S64x10 : S64x10.ShapeCasts S64x10
  inb_S10_S10_0 : ∀ a, (![0] : Fin 1 → Nat) a + S10.size a ≤ S10.size a
  h_S10 : 0 < S10.numel
  shapeCasts_S10_S1x10 : S10.ShapeCasts S1x10
  broadcasts_S1x10_S128x10 : S1x10.Broadcasts S128x10
  dot_S8192x11_S11x64_S8192x64_1_0_0_1_n_n_wf : DotDims.WF S8192x11 S11x64 S8192x64 [1] [0] [0] [1] [] []
  dot_S8192x64_S64x128_S8192x128_1_0_0_1_n_n_wf : DotDims.WF S8192x64 S64x128 S8192x128 [1] [0] [0] [1] [] []
  dot_S128x138_S138x64_S128x64_1_0_0_1_n_n_wf : DotDims.WF S128x138 S138x64 S128x64 [1] [0] [0] [1] [] []
  dot_S128x64_S64x128_S128x128_1_0_0_1_n_n_wf : DotDims.WF S128x64 S64x128 S128x128 [1] [0] [0] [1] [] []
  dot_S128x128_S128x64_S128x64_1_0_0_1_n_n_wf : DotDims.WF S128x128 S128x64 S128x64 [1] [0] [0] [1] [] []
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10.size a ≤ S1024x10.size a
  hwx0_0 : ∀ i : grid0.Coords, EltTy.bits .f32 = 32 ∨ (Rect.block (s := S1024x10) S128x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x10.size a ≤ S1024x10.size a
  hwx0_1 : ∀ i : grid0.Coords, EltTy.bits .f32 = 32 ∨ (Rect.block (s := S1024x10) S64x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x10.size a ≤ S1024x10.size a
  hwx0_2 : ∀ i : grid0.Coords, EltTy.bits .f32 = 32 ∨ (Rect.block (s := S1024x10) S128x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S11x64.size a ≤ S11x64.size a
  hwx0_3 : ∀ i : grid0.Coords, EltTy.bits .f32 = 32 ∨ (Rect.block (s := S11x64) S11x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S138x64.size a ≤ S138x64.size a
  hwx0_7 : ∀ i : grid0.Coords, EltTy.bits .f32 = 32 ∨ (Rect.block (s := S138x64) S138x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .f32 = 32 ∨ (Rect.block (s := S128x64) S128x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x10.size a ≤ S64x10.size a
  hwx0_13 : ∀ i : grid0.Coords, EltTy.bits .f32 = 32 ∨ (Rect.block (s := S64x10) S64x10.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S10.size a ≤ S10.size a
  hwx0_14 : ∀ i : grid0.Coords, EltTy.bits .f32 = 32 ∨ (Rect.block (s := S10) S10.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x10.size a ≤ S1024x10.size a
  hwx0_15 : ∀ i : grid0.Coords, EltTy.bits .f32 = 32 ∨ (Rect.block (s := S1024x10) S128x10.size (cc0_transform_15 i) (hinb0_15 i)).WholeWords (EltTy.packing .f32)

variable [Facts₀]

def dot_S8192x11_S11x64_S8192x64_1_0_0_1_n_n : DotDims S8192x11 S11x64 S8192x64 where
  lhsContracting := [1]
  rhsContracting := [0]
  lhsNonContracting := [0]
  rhsNonContracting := [1]
  lhsBatch := []
  rhsBatch := []
  wf := dot_S8192x11_S11x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S128x138_S138x64_S128x64_1_0_0_1_n_n : DotDims S128x138 S138x64 S128x64 where
  lhsContracting := [1]
  rhsContracting := [0]
  lhsNonContracting := [0]
  rhsNonContracting := [1]
  lhsBatch := []
  rhsBatch := []
  wf := dot_S128x138_S138x64_S128x64_1_0_0_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S128x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S11x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S138x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S64x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v6) S128x10.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | ⟨_ + 16, h⟩ => absurd h (Nat.not_lt.2 (Nat.le_add_left _ _))

class Facts : Prop extends Facts₀ where

variable [Facts]
-- ==== ReferenceIdeal.lean ====
abbrev S1024x10 : Shape := ⟨2, ![1024, 10]⟩
abbrev S64x11 : Shape := ⟨2, ![64, 11]⟩
abbrev S64 : Shape := ⟨1, ![64]⟩
abbrev S128x64 : Shape := ⟨2, ![128, 64]⟩
abbrev S128 : Shape := ⟨1, ![128]⟩
abbrev S64x138 : Shape := ⟨2, ![64, 138]⟩
abbrev S64x128 : Shape := ⟨2, ![64, 128]⟩
abbrev S10x64 : Shape := ⟨2, ![10, 64]⟩
abbrev S10 : Shape := ⟨1, ![10]⟩
abbrev S1024x1x10 : Shape := ⟨3, ![1024, 1, 10]⟩
abbrev S1x1024x10 : Shape := ⟨3, ![1, 1024, 10]⟩
abbrev S1024x1024x10 : Shape := ⟨3, ![1024, 1024, 10]⟩
abbrev S1024x1024 : Shape := ⟨2, ![1024, 1024]⟩
abbrev S_ : Shape := ⟨0, ![]⟩
abbrev S1024x1024x1 : Shape := ⟨3, ![1024, 1024, 1]⟩
abbrev S1024x1024x11 : Shape := ⟨3, ![1024, 1024, 11]⟩
abbrev S1024x1024x3 : Shape := ⟨3, ![1024, 1024, 3]⟩
abbrev S1024x1024x64 : Shape := ⟨3, ![1024, 1024, 64]⟩
abbrev S1x1x64 : Shape := ⟨3, ![1, 1, 64]⟩
abbrev S1024x1024x128 : Shape := ⟨3, ![1024, 1024, 128]⟩
abbrev S1x1x128 : Shape := ⟨3, ![1, 1, 128]⟩
abbrev S1024x128 : Shape := ⟨2, ![1024, 128]⟩
abbrev S1024x138 : Shape := ⟨2, ![1024, 138]⟩
abbrev S138x64 : Shape := ⟨2, ![138, 64]⟩
abbrev S1024x64 : Shape := ⟨2, ![1024, 64]⟩
abbrev S1x64 : Shape := ⟨2, ![1, 64]⟩
abbrev S1x128 : Shape := ⟨2, ![1, 128]⟩
abbrev S64x10 : Shape := ⟨2, ![64, 10]⟩
abbrev S1x10 : Shape := ⟨2, ![1, 10]⟩

abbrev nBuf : Space → Nat
  | .hbm => 92
  | .vmem => 0
  | .smem => 0
  | _ => 0

abbrev bufTy : (tb : Table) → Fin (tcTables nBuf tb) → BufTy
  | .hbm, ⟨0, _⟩ => ⟨S1024x10, .f32⟩
  | .hbm, ⟨1, _⟩ => ⟨S1024x10, .f32⟩
  | .hbm, ⟨2, _⟩ => ⟨S64x11, .f32⟩
  | .hbm, ⟨3, _⟩ => ⟨S64, .f32⟩
  | .hbm, ⟨4, _⟩ => ⟨S128x64, .f32⟩
  | .hbm, ⟨5, _⟩ => ⟨S128, .f32⟩
  | .hbm, ⟨6, _⟩ => ⟨S64x138, .f32⟩
  | .hbm, ⟨7, _⟩ => ⟨S64, .f32⟩
  | .hbm, ⟨8, _⟩ => ⟨S128x64, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S10x64, .f32⟩
  | .hbm, ⟨13, _⟩ => ⟨S10, .f32⟩
  | .hbm, ⟨14, _⟩ => ⟨S1024x1x10, .f32⟩
  | .hbm, ⟨15, _⟩ => ⟨S1x1024x10, .f32⟩
  | .hbm, ⟨16, _⟩ => ⟨S1024x1024x10, .f32⟩
  | .hbm, ⟨17, _⟩ => ⟨S1024x1024x10, .f32⟩
  | .hbm, ⟨18, _⟩ => ⟨S1024x1024x10, .f32⟩
  | .hbm, ⟨19, _⟩ => ⟨S1024x1024, .i32⟩
  | .hbm, ⟨20, _⟩ => ⟨S1024x1024, .i32⟩
  | .hbm, ⟨21, _⟩ => ⟨S_, .i32⟩
  | .hbm, ⟨22, _⟩ => ⟨S1024x1024, .i32⟩
  | .hbm, ⟨23, _⟩ => ⟨S1024x1024, .i32⟩
  | .hbm, ⟨24, _⟩ => ⟨S1024x1024, .i1⟩
  | .hbm, ⟨25, _⟩ => ⟨S1024x1024, .f32⟩
  | .hbm, ⟨26, _⟩ => ⟨S1024x1024x1, .f32⟩
  | .hbm, ⟨27, _⟩ => ⟨S1024x1024x11, .f32⟩
  | .hbm, ⟨28, _⟩ => ⟨S1024x1024x3, .f32⟩
  | .hbm, ⟨29, _⟩ => ⟨S1024x1024x3, .f32⟩
  | .hbm, ⟨30, _⟩ => ⟨S_, .f32⟩
  | .hbm, ⟨31, _⟩ => ⟨S1024x1024, .f32⟩
  | .hbm, ⟨32, _⟩ => ⟨S1024x1024x1, .f32⟩
  | .hbm, ⟨33, _⟩ => ⟨S1024x1024x1, .f32⟩
  | .hbm, ⟨34, _⟩ => ⟨S_, .f32⟩
  | .hbm, ⟨35, _⟩ => ⟨S1024x1024x1, .f32⟩
  | .hbm, ⟨36, _⟩ => ⟨S1024x1024x1, .i1⟩
  | .hbm, ⟨37, _⟩ => ⟨S1024x1024x1, .f32⟩
  | .hbm, ⟨38, _⟩ => ⟨S1024x1024x64, .f32⟩
  | .hbm, ⟨39, _⟩ => ⟨S1x1x64, .f32⟩
  | .hbm, ⟨40, _⟩ => ⟨S1024x1024x64, .f32⟩
  | .hbm, ⟨41, _⟩ => ⟨S1024x1024x64, .f32⟩
  | .hbm, ⟨42, _⟩ => ⟨S_, .f32⟩
  | .hbm, ⟨43, _⟩ => ⟨S1024x1024x64, .f32⟩
  | .hbm, ⟨44, _⟩ => ⟨S1024x1024x64, .f32⟩
  | .hbm, ⟨45, _⟩ => ⟨S1024x1024x128, .f32⟩
  | .hbm, ⟨46, _⟩ => ⟨S1x1x128, .f32⟩
  | .hbm, ⟨47, _⟩ => ⟨S1024x1024x128, .f32⟩
  | .hbm, ⟨48, _⟩ => ⟨S1024x1024x128, .f32⟩
  | .hbm, ⟨49, _⟩ => ⟨S_, .f32⟩
  | .hbm, ⟨50, _⟩ => ⟨S1024x1024x128, .f32⟩
  | .hbm, ⟨51, _⟩ => ⟨S1024x1024x128, .f32⟩
  | .hbm, ⟨52, _⟩ => ⟨S1024x1024x128, .f32⟩
  | .hbm, ⟨53, _⟩ => ⟨S1024x1024x128, .f32⟩
  | .hbm, ⟨54, _⟩ => ⟨S_, .f32⟩
  | .hbm, ⟨55, _⟩ => ⟨S1024x128, .f32⟩
  | .hbm, ⟨56, _⟩ => ⟨S1024x10, .f32⟩
  | .hbm, ⟨57, _⟩ => ⟨S1024x138, .f32⟩
  | .hbm, ⟨58, _⟩ => ⟨S138x64, .f32⟩
  | .hbm, ⟨59, _⟩ => ⟨S1024x64, .f32⟩
  | .hbm, ⟨60, _⟩ => ⟨S1x64, .f32⟩
  | .hbm, ⟨61, _⟩ => ⟨S1024x64, .f32⟩
  | .hbm, ⟨62, _⟩ => ⟨S1024x64, .f32⟩
  | .hbm, ⟨63, _⟩ => ⟨S_, .f32⟩
  | .hbm, ⟨64, _⟩ => ⟨S1024x64, .f32⟩
  | .hbm, ⟨65, _⟩ => ⟨S1024x64, .f32⟩
  | .hbm, ⟨66, _⟩ => ⟨S64x128, .f32⟩
  | .hbm, ⟨67, _⟩ => ⟨S1024x128, .f32⟩
  | .hbm, ⟨68, _⟩ => ⟨S1x128, .f32⟩
  | .hbm, ⟨69, _⟩ => ⟨S1024x128, .f32⟩
  | .hbm, ⟨70, _⟩ => ⟨S1024x128, .f32⟩
  | .hbm, ⟨71, _⟩ => ⟨S_, .f32⟩
  | .hbm, ⟨72, _⟩ => ⟨S1024x128, .f32⟩
  | .hbm, ⟨73, _⟩ => ⟨S1024x128, .f32⟩
  | .hbm, ⟨74, _⟩ => ⟨S128x64, .f32⟩
  | .hbm, ⟨75, _⟩ => ⟨S1024x64, .f32⟩
  | .hbm, ⟨76, _⟩ => ⟨S1x64, .f32⟩
  | .hbm, ⟨77, _⟩ => ⟨S1024x64, .f32⟩
  | .hbm, ⟨78, _⟩ => ⟨S1024x64, .f32⟩
  | .hbm, ⟨79, _⟩ => ⟨S_, .f32⟩
  | .hbm, ⟨80, _⟩ => ⟨S1024x64, .f32⟩
  | .hbm, ⟨81, _⟩ => ⟨S1024x64, .f32⟩
  | .hbm, ⟨82, _⟩ => ⟨S64x10, .f32⟩
  | .hbm, ⟨83, _⟩ => ⟨S1024x10, .f32⟩
  | .hbm, ⟨84, _⟩ => ⟨S1x10, .f32⟩
  | .hbm, ⟨85, _⟩ => ⟨S1024x10, .f32⟩
  | .hbm, ⟨86, _⟩ => ⟨S1024x10, .f32⟩
  | .hbm, ⟨87, _⟩ => ⟨S1024x10, .f32⟩
  | .hbm, ⟨88, _⟩ => ⟨S_, .f32⟩
  | .hbm, ⟨89, _⟩ => ⟨S1024x10, .f32⟩
  | .hbm, ⟨90, _⟩ => ⟨S1024x10, .f32⟩
  | .hbm, ⟨91, _⟩ => ⟨S1024x10, .f32⟩
  | _, _ => ⟨S1024x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_call0_v2 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_cst : Ref sig .tc := ⟨.hbm, 42, rfl⟩
abbrev main_call1_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call2_cst : Ref sig .tc := ⟨.hbm, 49, rfl⟩
abbrev main_call2_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call3_cst : Ref sig .tc := ⟨.hbm, 63, rfl⟩
abbrev main_call3_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call4_cst : Ref sig .tc := ⟨.hbm, 71, rfl⟩
abbrev main_call4_v0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call5_cst : Ref sig .tc := ⟨.hbm, 79, rfl⟩
abbrev main_call5_v0 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_1 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]

class Facts₀ : Prop where
  bcast_S1024x10_S1024x1x10_0_2 : S1024x10.BroadcastsInDim S1024x1x10 (![0, 2] : Fin 2 → Fin S1024x1x10.rank)
  bcast_S1024x10_S1x1024x10_1_2 : S1024x10.BroadcastsInDim S1x1024x10 (![1, 2] : Fin 2 → Fin S1x1024x10.rank)
  bcast_S1024x1x10_S1024x1024x10_0_1_2 : S1024x1x10.BroadcastsInDim S1024x1024x10 (![0, 1, 2] : Fin 3 → Fin S1024x1024x10.rank)
  bcast_S1x1024x10_S1024x1024x10_0_1_2 : S1x1024x10.BroadcastsInDim S1024x1024x10 (![0, 1, 2] : Fin 3 → Fin S1024x1024x10.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  concatenates_S1024x1024x10_S1024x1024x1_S1024x1024x11_d2 : Shape.Concatenates [S1024x1024x10, S1024x1024x1] S1024x1024x11 2
  slices_S1024x1024x11_S1024x1024x3_0_0_0 : S1024x1024x11.Slices ![0, 0, 0] S1024x1024x3
  reducesTo_S1024x1024x3_S1024x1024_d2 : S1024x1024x3.ReducesTo [2] S1024x1024
  h_S_ : 0 < S_.numel
  bcast_S_S1024x1024x1 : S_.BroadcastsInDim S1024x1024x1 (![] : Fin 0 → Fin S1024x1024x1.rank)
  bcast_S64_S1x1x64_2 : S64.BroadcastsInDim S1x1x64 (![2] : Fin 1 → Fin S1x1x64.rank)
  bcast_S1x1x64_S1024x1024x64_0_1_2 : S1x1x64.BroadcastsInDim S1024x1024x64 (![0, 1, 2] : Fin 3 → Fin S1024x1024x64.rank)
  bcast_S_S1024x1024x64 : S_.BroadcastsInDim S1024x1024x64 (![] : Fin 0 → Fin S1024x1024x64.rank)
  bcast_S128_S1x1x128_2 : S128.BroadcastsInDim S1x1x128 (![2] : Fin 1 → Fin S1x1x128.rank)
  bcast_S1x1x128_S1024x1024x128_0_1_2 : S1x1x128.BroadcastsInDim S1024x1024x128 (![0, 1, 2] : Fin 3 → Fin S1024x1024x128.rank)
  bcast_S_S1024x1024x128 : S_.BroadcastsInDim S1024x1024x128 (![] : Fin 0 → Fin S1024x1024x128.rank)
  bcast_S1024x1024x1_S1024x1024x128_0_1_2 : S1024x1024x1.BroadcastsInDim S1024x1024x128 (![0, 1, 2] : Fin 3 → Fin S1024x1024x128.rank)
  reducesTo_S1024x1024x128_S1024x128_d1 : S1024x1024x128.ReducesTo [1] S1024x128
  concatenates_S1024x128_S1024x10_S1024x138_d1 : Shape.Concatenates [S1024x128, S1024x10] S1024x138 1
  transposes_S64x138_S138x64_1_0 : S64x138.Transposes [1, 0] S138x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  transposes_S128x64_S64x128_1_0 : S128x64.Transposes [1, 0] S64x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  transposes_S64x128_S128x64_1_0 : S64x128.Transposes [1, 0] S128x64
  transposes_S10x64_S64x10_1_0 : S10x64.Transposes [1, 0] S64x10
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  bcast_S_S1024x10 : S_.BroadcastsInDim S1024x10 (![] : Fin 0 → Fin S1024x10.rank)
  dot_S1024x1024x11_S64x11_S1024x1024x64_2_1_01_0_n_n_wf : DotDims.WF S1024x1024x11 S64x11 S1024x1024x64 [2] [1] [0, 1] [0] [] []
  dot_S1024x1024x64_S128x64_S1024x1024x128_2_1_01_0_n_n_wf : DotDims.WF S1024x1024x64 S128x64 S1024x1024x128 [2] [1] [0, 1] [0] [] []
  dot_S1024x138_S138x64_S1024x64_1_0_0_1_n_n_wf : DotDims.WF S1024x138 S138x64 S1024x64 [1] [0] [0] [1] [] []
  dot_S1024x64_S64x128_S1024x128_1_0_0_1_n_n_wf : DotDims.WF S1024x64 S64x128 S1024x128 [1] [0] [0] [1] [] []
  dot_S1024x128_S128x64_S1024x64_1_0_0_1_n_n_wf : DotDims.WF S1024x128 S128x64 S1024x64 [1] [0] [0] [1] [] []
  dot_S1024x64_S64x10_S1024x10_1_0_0_1_n_n_wf : DotDims.WF S1024x64 S64x10 S1024x10 [1] [0] [0] [1] [] []

variable [Facts₀]

def dot_S1024x1024x11_S64x11_S1024x1024x64_2_1_01_0_n_n : DotDims S1024x1024x11 S64x11 S1024x1024x64 where
  lhsContracting := [2]
  rhsContracting := [1]
  lhsNonContracting := [0, 1]
  rhsNonContracting := [0]
  lhsBatch := []
  rhsBatch := []
  wf := dot_S1024x1024x11_S64x11_S1024x1024x64_2_1_01_0_n_n_wf
def dot_S1024x1024x64_S128x64_S1024x1024x128_2_1_01_0_n_n : DotDims S1024x1024x64 S128x64 S1024x1024x128 where
  lhsContracting := [2]
  rhsContracting := [1]
  lhsNonContracting := [0, 1]
  rhsNonContracting := [0]
  lhsBatch := []
  rhsBatch := []
  wf := dot_S1024x1024x64_S128x64_S1024x1024x128_2_1_01_0_n_n_wf
def dot_S1024x138_S138x64_S1024x64_1_0_0_1_n_n : DotDims S1024x138 S138x64 S1024x64 where
  lhsContracting := [1]
  rhsContracting := [0]
  lhsNonContracting := [0]
  rhsNonContracting := [1]
  lhsBatch := []
  rhsBatch := []
  wf := dot_S1024x138_S138x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf

class Facts : Prop extends Facts₀ where

variable [Facts]
-- ==== Proof.LibSharedFrame.lean ====
import Idealize.ShloMosaic.Lib.Pipeline.Frame

noncomputable section

namespace Cert.Lib

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run when input windows may share an array: from the body's obligation at every point, how the arrays' shares are divided
    among the windows at entry, and an invariant that holds before the first point and after the last. -/
theorem θ_run_frame_track_shared
    (cfgs : P → Cfg sig Λ₀) (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr
      · iempintro
      · iexact HU)
    (hin := fun c => (show iprop(emp ∗ scopedRest (cfgs p).spec c) ⊢ (scopedRest (cfgs p).spec c : sProp 𝕄) from by
      iintro ⟨-, H⟩; iexact H).trans (hin c))
    (hout := fun c => (hout c).trans (by
      iintro H
      isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib

end
-- ==== Proof.KB.Runs.lean ====
import proofs.«132723_j7645041786903_1_alg».proof.Proof.Gen.Kernel.Launch
import proofs.«132723_j7645041786903_1_alg».proof.Proof.Gen.Kernel.Skeleton
import proofs.«132723_j7645041786903_1_alg».proof.Proof.Gen.Kernel.Points
import proofs.«132723_j7645041786903_1_alg».proof.Proof.LibSharedFrame
import Idealize.ShloMosaic.Lib.Pipeline.FrameBody
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no host transpose writes is found by the region as launched. -/
theorem V_arg (c : Dev nD) (b : Ref sig .tc) (hb : ∀ v ∈ [main_v0, main_v1, main_v2, main_v3, main_v4, main_v5], b ≠ v := by decide) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    repeat' apply And.intro
    all_goals exact StableHlo.devRef_ne_of_ne (hb _ (by decide))))

noncomputable def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt : ∀ w : Fin 16, w ≠ 15 → ∀ t : Fin cfg0.N, cfg0.idle w (grid0.coords t) = false := by decide +kernel
theorem idleAt0_15 : ∀ t : Fin cfg0.N, ¬cond0_1 (grid0.coords t) → cfg0.idle 15 (grid0.coords t) = true := by decide +kernel
theorem noFlush0_15 : ∀ t : Fin cfg0.N, ¬cond0_1 (grid0.coords t) → (cfg0.win 15).flush t = false := by decide +kernel
theorem liveAt0_15 : ∀ t : Fin cfg0.N, cond0_1 (grid0.coords t) → cfg0.idle 15 (grid0.coords t) = false := by decide +kernel

/-- A memref that is a whole buffer. -/
abbrev WM (S : Shape) : Type := { a : Memref sig .tc .vmem S .f32 // a.IsWhole }

/-- The body's operands: fifteen inputs, the result window, the running-maximum scratch. -/
structure Ops where
  a2 : WM S128x10
  a3 : WM S64x10
  a4 : WM S128x10
  a5 : WM S11x64
  a6 : WM S64
  a7 : WM S64x128
  a8 : WM S128
  a9 : WM S138x64
  a10 : WM S64
  a11 : WM S64x128
  a12 : WM S128
  a13 : WM S128x64
  a14 : WM S64
  a15 : WM S64x10
  a16 : WM S10
  a17 : WM S128x10
  a18 : WM S128x128

/-- The buffer that carries the running maximum. -/
abbrev scM0_0 : Memref sig .tc .vmem S128x128 .f32 := Memref.whole cc0_scratch0

/-- The body's operands at point `t`. -/
noncomputable def opsAt (t : Fin cfg0.N) : Ops :=
  ⟨⟨win0_0.stage (cfg0.slots t 0), hstage0_0 ((cfg0.slots t 0).cast nbuf0_0)⟩,
    ⟨win0_1.stage (cfg0.slots t 1), hstage0_1 ((cfg0.slots t 1).cast nbuf0_1)⟩,
    ⟨win0_2.stage (cfg0.slots t 2), hstage0_2 ((cfg0.slots t 2).cast nbuf0_2)⟩,
    ⟨win0_3.stage (cfg0.slots t 3), hstage0_3 ((cfg0.slots t 3).cast nbuf0_3)⟩,
    ⟨win0_4.stage (cfg0.slots t 4), hstage0_4 ((cfg0.slots t 4).cast nbuf0_4)⟩,
    ⟨win0_5.stage (cfg0.slots t 5), hstage0_5 ((cfg0.slots t 5).cast nbuf0_5)⟩,
    ⟨win0_6.stage (cfg0.slots t 6), hstage0_6 ((cfg0.slots t 6).cast nbuf0_6)⟩,
    ⟨win0_7.stage (cfg0.slots t 7), hstage0_7 ((cfg0.slots t 7).cast nbuf0_7)⟩,
    ⟨win0_8.stage (cfg0.slots t 8), hstage0_8 ((cfg0.slots t 8).cast nbuf0_8)⟩,
    ⟨win0_9.stage (cfg0.slots t 9), hstage0_9 ((cfg0.slots t 9).cast nbuf0_9)⟩,
    ⟨win0_10.stage (cfg0.slots t 10), hstage0_10 ((cfg0.slots t 10).cast nbuf0_10)⟩,
    ⟨win0_11.stage (cfg0.slots t 11), hstage0_11 ((cfg0.slots t 11).cast nbuf0_11)⟩,
    ⟨win0_12.stage (cfg0.slots t 12), hstage0_12 ((cfg0.slots t 12).cast nbuf0_12)⟩,
    ⟨win0_13.stage (cfg0.slots t 13), hstage0_13 ((cfg0.slots t 13).cast nbuf0_13)⟩,
    ⟨win0_14.stage (cfg0.slots t 14), hstage0_14 ((cfg0.slots t 14).cast nbuf0_14)⟩,
    ⟨win0_15.stage (cfg0.slots t 15), hstage0_15 ((cfg0.slots t 15).cast nbuf0_15)⟩,
    ⟨scM0_0, Memref.isWhole_whole _⟩⟩

abbrev body (i : grid0.Coords) (o : Ops) : Prog (TpuEff nD τ sig (Elt F) Λ₀ .tc) PUnit :=
  cc0__kernel i o.a2.1 o.a2.2 o.a3.1 o.a3.2 o.a4.1 o.a4.2 o.a5.1 o.a5.2 o.a6.1 o.a6.2 o.a7.1 o.a7.2 o.a8.1 o.a8.2 o.a9.1 o.a9.2 o.a10.1 o.a10.2 o.a11.1 o.a11.2 o.a12.1 o.a12.2 o.a13.1 o.a13.2 o.a14.1 o.a14.2 o.a15.1 o.a15.2 o.a16.1 o.a16.2 o.a17.1 o.a17.2 o.a18.1 o.a18.2

/-- The fifteen input blocks of a point. -/
structure Blks (F : FTy → Type) where
  x0 : Vec F S128x10 .f32
  x1 : Vec F S64x10 .f32
  x2 : Vec F S128x10 .f32
  x3 : Vec F S11x64 .f32
  x4 : Vec F S64 .f32
  x5 : Vec F S64x128 .f32
  x6 : Vec F S128 .f32
  x7 : Vec F S138x64 .f32
  x8 : Vec F S64 .f32
  x9 : Vec F S64x128 .f32
  x10 : Vec F S128 .f32
  x11 : Vec F S128x64 .f32
  x12 : Vec F S64 .f32
  x13 : Vec F S64x10 .f32
  x14 : Vec F S10 .f32

noncomputable def blks (c : Dev nD) (t : Fin cfg0.N) : Blks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

/-- The input memrefs at their blocks, then `R`. -/
noncomputable def ins (c : Dev nD) (o : Ops) (x : Blks F) (R : sProp 𝕄) : sProp 𝕄 :=
  iprop(owns (c : Thread nD τ) o.a2.1 fullShare x.x0 ∗ owns (c : Thread nD τ) o.a3.1 fullShare x.x1 ∗ owns (c : Thread nD τ) o.a4.1 fullShare x.x2 ∗ owns (c : Thread nD τ) o.a5.1 fullShare x.x3 ∗ owns (c : Thread nD τ) o.a6.1 fullShare x.x4 ∗ owns (c : Thread nD τ) o.a7.1 fullShare x.x5 ∗ owns (c : Thread nD τ) o.a8.1 fullShare x.x6 ∗ owns (c : Thread nD τ) o.a9.1 fullShare x.x7 ∗ owns (c : Thread nD τ) o.a10.1 fullShare x.x8 ∗ owns (c : Thread nD τ) o.a11.1 fullShare x.x9 ∗ owns (c : Thread nD τ) o.a12.1 fullShare x.x10 ∗ owns (c : Thread nD τ) o.a13.1 fullShare x.x11 ∗ owns (c : Thread nD τ) o.a14.1 fullShare x.x12 ∗ owns (c : Thread nD τ) o.a15.1 fullShare x.x13 ∗ owns (c : Thread nD τ) o.a16.1 fullShare x.x14 ∗ R)

/-- The running maximum `s` raised by the masked second-layer outputs of one tile of pairs. -/
noncomputable def upd (i : grid0.Coords) (x : Blks F) (s : Vec F S128x128 .f32) : Vec F S128x128 .f32 :=
  k0_pay1 (k0_pay6 x.x0 x.x1) (k0_pay7 i x.x0 x.x1 x.x3 x.x4) (k0_pay8 (F := F)) x.x5 x.x6 s

/-- The four-layer head on pooled rows `s`. -/
noncomputable def head (x : Blks F) (s : Vec F S128x128 .f32) : Vec F S128x10 .f32 :=
  k0_pay2 x.x0 x.x2 (k0_pay3 x.x0 s x.x2 x.x7 x.x8 x.x9 x.x10 x.x11 x.x12) x.x13 x.x14

/-- A run of the body in one control case: piece lists with which the body, from the inputs at their blocks, the result window as
    `Win` says and the scratch as `S` says, reaches any continuation that takes the inputs back with the result window as `W` says of
    its pieces and the scratch with its pieces written. -/
noncomputable def Run (c : Dev nD) (i : grid0.Coords) (o : Ops) (x : Blks F) (Win S : sProp 𝕄) (W : List (View.Piece (Elt F) S128x10 .f32) → sProp 𝕄) : Type :=
  Σ' (L15 : List (View.Piece (Elt F) S128x10 .f32)), { LS0 : List (View.Piece (Elt F) S128x128 .f32) //
    ∀ (E : Set ℕ) (K : PUnit → sProp 𝕄),
      ins c o x iprop(Win ∗ S
          ∗ (ins c o x iprop(W L15 ∗ (∃ f, o.a18.1.view.loc (c : Thread nD τ) ↦[o.a18.1.view.set]{fullShare} o.a18.1.view.writes (Elt F) f LS0)) -∗ K ⟨⟩))
        ⊢ wp frame (wpE (defs₀ (F := F)) Variants.none c none) E (body i o) K }

theorem off2 : (![0, 0] : Fin 2 → Nat) = fun _ => 0 := funext fun a => by fin_cases a <;> rfl
theorem off1 : (![0] : Fin 1 → Nat) = fun _ => 0 := funext fun a => by fin_cases a; rfl

theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d)) := by
  rw [scopedRest0_eq]; simp only [scM0_0, owns_whole]; try rfl

end Cert.Kernel.Fr

end
-- ==== Proof.KB.RunA.lean ====
import proofs.«132723_j7645041786903_1_alg».proof.Proof.KB.Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first column of a grid row: the scratch is zeroed, then raised by this tile; the result window is left as found. -/
noncomputable def runA (c : Dev nD) (i : grid0.Coords) (o : Ops) (hc0 : cond0_0 i) (hc1 : ¬cond0_1 i) (x : Blks F) (xi15 : Vec F S128x10 .f32) :
    Run c i o x (owns (c : Thread nD τ) o.a17.1 fullShare xi15) iprop(∃ d, owns (c : Thread nD τ) o.a18.1 fullShare d)
      (fun _ => owns (c : Thread nD τ) o.a17.1 fullShare xi15) := by
  refine ⟨[], ?_, fun E K => ?run⟩
  case run =>
    unfold ins body; dsimp only
    simp only [cc0__kernel_eq_skeleton]; unfold cc0__kernel_skel
    simp only [k0_part1_eq_skeleton, k0_part2_eq_skeleton, owns_eq_rep]
    iintro ⟨H0, H1, H2, H3, H4, H5, H6, H7, H8, H9, H10, H11, H12, H13, H14, H15, ⟨%ds0, HS0⟩, Hk⟩
    sl_exec (disch := first | exact hc0 | exact hc1)
    sl_step
    iapply Hk
    iframe H0 H1 H2 H3 H4 H5 H6 H7 H8 H9 H10 H11 H12 H13 H14
    iframe H15
    iexists _; iexact HS0

/-- Its scratch pieces read back. -/
theorem runA_scr (c : Dev nD) (i : grid0.Coords) (o : Ops) (hc0 : cond0_0 i) (hc1 : ¬cond0_1 i) (x : Blks F) (xi15 : Vec F S128x10 .f32)
    (v : View sig .tc .vmem S128x128 .f32) (f : v.ty.Contents (Elt F)) :
    v.read (Elt F) (v.writes (Elt F) f (runA c i o hc0 hc1 x xi15).2.1) = upd i x (k0_pay4 (F := F)) := by
  rw [View.read_writes_eq_canon _ _ _ (View.cover_of_tiledL _ S128x128.size (by sl_kernel_rfl))]
  unfold runA upd
  dsimp only
  try sl_unfold_words
  rw [View.canon_cons_unit_zero (S := S128x128) off2, View.readCov_unit_zero (S := S128x128) _ off2]
  simp only [View.readAt_eq_ld, View.read_rep, View.ld_unit_zero (S := S128x10) off2, View.ld_unit_zero (S := S64x10) off2, View.ld_unit_zero (S := S11x64) off2, View.ld_unit_zero (S := S64x128) off2, View.ld_unit_zero (S := S128x128) off2, View.ld_unit_zero (S := S138x64) off2, View.ld_unit_zero (S := S128x64) off2, View.ld_unit_zero (S := S64) off1, View.ld_unit_zero (S := S128) off1, View.ld_unit_zero (S := S10) off1]

end Cert.Kernel.Fr

end
-- ==== Proof.KB.RunB.lean ====
import proofs.«132723_j7645041786903_1_alg».proof.Proof.KB.Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A middle column: the scratch the point before left is raised by this tile; the result window is left as found. -/
noncomputable def runB (c : Dev nD) (i : grid0.Coords) (o : Ops) (hc0 : ¬cond0_0 i) (hc1 : ¬cond0_1 i) (x : Blks F) (xi15 : Vec F S128x10 .f32)
    (xs0 : Vec F S128x128 .f32) :
    Run c i o x (owns (c : Thread nD τ) o.a17.1 fullShare xi15) (owns (c : Thread nD τ) o.a18.1 fullShare xs0)
      (fun _ => owns (c : Thread nD τ) o.a17.1 fullShare xi15) := by
  refine ⟨[], ?_, fun E K => ?run⟩
  case run =>
    unfold ins body; dsimp only
    simp only [cc0__kernel_eq_skeleton]; unfold cc0__kernel_skel
    simp only [k0_part1_eq_skeleton, k0_part2_eq_skeleton, owns_eq_rep]
    iintro ⟨H0, H1, H2, H3, H4, H5, H6, H7, H8, H9, H10, H11, H12, H13, H14, H15, HS0, Hk⟩
    sl_exec (disch := first | exact hc0 | exact hc1)
    sl_step
    iapply Hk
    iframe H0 H1 H2 H3 H4 H5 H6 H7 H8 H9 H10 H11 H12 H13 H14
    iframe H15
    iexists _; iexact HS0

/-- Its scratch pieces read back. -/
theorem runB_scr (c : Dev nD) (i : grid0.Coords) (o : Ops) (hc0 : ¬cond0_0 i) (hc1 : ¬cond0_1 i) (x : Blks F) (xi15 : Vec F S128x10 .f32) (xs0 : Vec F S128x128 .f32)
    (v : View sig .tc .vmem S128x128 .f32) (f : v.ty.Contents (Elt F)) :
    v.read (Elt F) (v.writes (Elt F) f (runB c i o hc0 hc1 x xi15 xs0).2.1) = upd i x xs0 := by
  rw [View.read_writes_eq_canon _ _ _ (View.cover_of_tiledL _ S128x128.size (by sl_kernel_rfl))]
  unfold runB upd
  dsimp only
  try sl_unfold_words
  rw [View.canon_unit_zero off2]
  simp only [View.readAt_eq_ld, View.read_rep, View.ld_unit_zero (S := S128x10) off2, View.ld_unit_zero (S := S64x10) off2, View.ld_unit_zero (S := S11x64) off2, View.ld_unit_zero (S := S64x128) off2, View.ld_unit_zero (S := S128x128) off2, View.ld_unit_zero (S := S138x64) off2, View.ld_unit_zero (S := S128x64) off2, View.ld_unit_zero (S := S64) off1, View.ld_unit_zero (S := S128) off1, View.ld_unit_zero (S := S10) off1]

end Cert.Kernel.Fr

end
-- ==== Proof.KB.RunC.lean ====
import proofs.«132723_j7645041786903_1_alg».proof.Proof.KB.Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last column: the scratch is raised by this tile, the head runs on it and the result block is stored. -/
noncomputable def runC (c : Dev nD) (i : grid0.Coords) (o : Ops) (hc0 : ¬cond0_0 i) (hc1 : cond0_1 i) (x : Blks F) (xs0 : Vec F S128x128 .f32) :
    Run c i o x iprop(∃ d, owns (c : Thread nD τ) o.a17.1 fullShare d) (owns (c : Thread nD τ) o.a18.1 fullShare xs0)
      (fun L15 => iprop(∃ f, o.a17.1.view.loc (c : Thread nD τ) ↦[o.a17.1.view.set]{fullShare} o.a17.1.view.writes (Elt F) f L15)) := by
  refine ⟨?_, ?_, fun E K => ?run⟩
  case run =>
    unfold ins body; dsimp only
    simp only [cc0__kernel_eq_skeleton]; unfold cc0__kernel_skel
    simp only [k0_part1_eq_skeleton, k0_part2_eq_skeleton, owns_eq_rep]
    iintro ⟨H0, H1, H2, H3, H4, H5, H6, H7, H8, H9, H10, H11, H12, H13, H14, ⟨%d15, H15⟩, HS0, Hk⟩
    sl_exec (disch := first | exact hc0 | exact hc1)
    sl_step
    iapply Hk
    iframe H0 H1 H2 H3 H4 H5 H6 H7 H8 H9 H10 H11 H12 H13 H14
    isplitl [H15]; · iexists _; iexact H15
    iexists _; iexact HS0

/-- Its scratch pieces read back. -/
theorem runC_scr (c : Dev nD) (i : grid0.Coords) (o : Ops) (hc0 : ¬cond0_0 i) (hc1 : cond0_1 i) (x : Blks F) (xs0 : Vec F S128x128 .f32)
    (v : View sig .tc .vmem S128x128 .f32) (f : v.ty.Contents (Elt F)) :
    v.read (Elt F) (v.writes (Elt F) f (runC c i o hc0 hc1 x xs0).2.1) = upd i x xs0 := by
  rw [View.read_writes_eq_canon _ _ _ (View.cover_of_tiledL _ S128x128.size (by sl_kernel_rfl))]
  unfold runC upd
  dsimp only
  try sl_unfold_words
  rw [View.canon_unit_zero off2]
  simp only [View.readAt_eq_ld, View.read_rep, View.ld_unit_zero (S := S128x10) off2, View.ld_unit_zero (S := S64x10) off2, View.ld_unit_zero (S := S11x64) off2, View.ld_unit_zero (S := S64x128) off2, View.ld_unit_zero (S := S128x128) off2, View.ld_unit_zero (S := S138x64) off2, View.ld_unit_zero (S := S128x64) off2, View.ld_unit_zero (S := S64) off1, View.ld_unit_zero (S := S128) off1, View.ld_unit_zero (S := S10) off1]

/-- Its result pieces read back: the head on the updated scratch. -/
theorem runC_out (c : Dev nD) (i : grid0.Coords) (o : Ops) (hc0 : ¬cond0_0 i) (hc1 : cond0_1 i) (x : Blks F) (xs0 : Vec F S128x128 .f32)
    (v : View sig .tc .vmem S128x10 .f32) (f : v.ty.Contents (Elt F)) :
    v.read (Elt F) (v.writes (Elt F) f (runC c i o hc0 hc1 x xs0).1) = head x (upd i x xs0) := by
  rw [View.read_writes_eq_canon _ _ _ (View.cover_of_tiledL _ S128x10.size (by sl_kernel_rfl))]
  unfold runC head upd
  dsimp only
  try sl_unfold_words
  rw [View.canon_unit_zero off2]
  simp only [View.readCov_unit_zero (S := S128x128) _ off2, View.readAt_eq_ld, View.read_rep, View.ld_unit_zero (S := S128x10) off2, View.ld_unit_zero (S := S64x10) off2, View.ld_unit_zero (S := S11x64) off2, View.ld_unit_zero (S := S64x128) off2, View.ld_unit_zero (S := S128x128) off2, View.ld_unit_zero (S := S138x64) off2, View.ld_unit_zero (S := S128x64) off2, View.ld_unit_zero (S := S64) off1, View.ld_unit_zero (S := S128) off1, View.ld_unit_zero (S := S10) off1]

end Cert.Kernel.Fr

end
-- ==== Proof.KB.Split.lean ====
import proofs.«132723_j7645041786903_1_alg».proof.Proof.KB.Runs
import Mathlib.Tactic.FinCases

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each array's buffer goes whole to its window; the state array, read by two windows, has its full share halved between them. -/
theorem arrays_split_shared (c : Dev nD) (V' : (b : Ref sig .tc) → Buf (Elt F) ((c : Thread nD τ).loc b))
    (dat : Dat τ (Elt F) Unit ℕ (UR sig nD τ) ℕ cfg0 c)
    (hA : ∀ w, dat.A w = V' (Pipeline.arrRef spec0 w))
    (hq : ∀ w : Fin cfg0.W, dat.q w = if w.val = 0 then fullShare.left else if w.val = 1 then fullShare.right else fullShare) :
    (Pipeline.arrBufs (Ix := Unit) (Name := ℕ) (U := UR sig nD τ) (Lvl := ℕ) spec0 c V' : sProp 𝕄) ⊢ dat.arrays (dat.arrAt · 0) := by
  have hshare : ∀ w : Fin 16, dat.share w = if w.val = 0 then fullShare.left else if w.val = 1 then fullShare.right else fullShare := by
    intro w; unfold Dat.share; rw [hq w]
    fin_cases w <;> rfl
  have harr : dat.arrays (dat.arrAt · 0) = bigSep Finset.univ fun w : Fin 16 =>
      ((((c : Thread nD τ).loc (Pipeline.arrRef spec0 w)) ↦{if w.val = 0 then fullShare.left else if w.val = 1 then fullShare.right else fullShare}
        V' (Pipeline.arrRef spec0 w)) : sProp 𝕄) := by
    unfold Dat.arrays
    exact bigSep_congr fun w _ => by
      rw [(arr_whole0 w).set_eq_univ, hshare w]
      show (_ ↦{_} dat.A w) = _
      rw [hA w]
  have hR : dat.arrays (dat.arrAt · 0) = (iprop((((c : Thread nD τ).loc main_arg0) ↦{fullShare.left} V' main_arg0) ∗ (((c : Thread nD τ).loc main_arg0) ↦{fullShare.right} V' main_arg0) ∗ (((c : Thread nD τ).loc main_arg1) ↦{fullShare} V' main_arg1) ∗ (((c : Thread nD τ).loc main_v0) ↦{fullShare} V' main_v0) ∗ (((c : Thread nD τ).loc main_arg3) ↦{fullShare} V' main_arg3) ∗ (((c : Thread nD τ).loc main_v1) ↦{fullShare} V' main_v1) ∗ (((c : Thread nD τ).loc main_arg5) ↦{fullShare} V' main_arg5) ∗ (((c : Thread nD τ).loc main_v2) ↦{fullShare} V' main_v2) ∗ (((c : Thread nD τ).loc main_arg7) ↦{fullShare} V' main_arg7) ∗ (((c : Thread nD τ).loc main_v3) ↦{fullShare} V' main_v3) ∗ (((c : Thread nD τ).loc main_arg9) ↦{fullShare} V' main_arg9) ∗ (((c : Thread nD τ).loc main_v4) ↦{fullShare} V' main_v4) ∗ (((c : Thread nD τ).loc main_arg11) ↦{fullShare} V' main_arg11) ∗ (((c : Thread nD τ).loc main_v5) ↦{fullShare} V' main_v5) ∗ (((c : Thread nD τ).loc main_arg13) ↦{fullShare} V' main_arg13) ∗ (((c : Thread nD τ).loc main_v6) ↦{fullShare} V' main_v6)) : sProp 𝕄) := by
    rw [harr, bigSep_W0]; rfl
  have hL : (Pipeline.arrBufs (Ix := Unit) (Name := ℕ) (U := UR sig nD τ) (Lvl := ℕ) spec0 c V' : sProp 𝕄)
      = (iprop((((c : Thread nD τ).loc main_arg0) ↦{fullShare} V' main_arg0) ∗ (((c : Thread nD τ).loc main_arg1) ↦{fullShare} V' main_arg1) ∗ (((c : Thread nD τ).loc main_v0) ↦{fullShare} V' main_v0) ∗ (((c : Thread nD τ).loc main_arg3) ↦{fullShare} V' main_arg3) ∗ (((c : Thread nD τ).loc main_v1) ↦{fullShare} V' main_v1) ∗ (((c : Thread nD τ).loc main_arg5) ↦{fullShare} V' main_arg5) ∗ (((c : Thread nD τ).loc main_v2) ↦{fullShare} V' main_v2) ∗ (((c : Thread nD τ).loc main_arg7) ↦{fullShare} V' main_arg7) ∗ (((c : Thread nD τ).loc main_v3) ↦{fullShare} V' main_v3) ∗ (((c : Thread nD τ).loc main_arg9) ↦{fullShare} V' main_arg9) ∗ (((c : Thread nD τ).loc main_v4) ↦{fullShare} V' main_v4) ∗ (((c : Thread nD τ).loc main_arg11) ↦{fullShare} V' main_arg11) ∗ (((c : Thread nD τ).loc main_v5) ↦{fullShare} V' main_v5) ∗ (((c : Thread nD τ).loc main_arg13) ↦{fullShare} V' main_arg13) ∗ (((c : Thread nD τ).loc main_v6) ↦{fullShare} V' main_v6)) : sProp 𝕄) := by
    unfold Pipeline.arrBufs
    exact bigSep_eq_bigSepL_of_eq [main_arg0, main_arg1, main_v0, main_arg3, main_v1, main_arg5, main_v2, main_arg7, main_v3, main_arg9, main_v4, main_arg11, main_v5, main_arg13, main_v6] (by decide) (by decide) _
  rw [hL, hR]
  iintro ⟨H0, H1, H2, H3, H4, H5, H6, H7, H8, H9, H10, H11, H12, H13, H14⟩
  ihave H0 := (pointsTo_share (PosShare.mem_left_op_right fullShare)).1 $$ H0
  icases H0 with ⟨H0l, H0r⟩
  iframe

end Cert.Kernel.Fr

end
-- ==== Proof.KB.Frame.lean ====
import proofs.«132723_j7645041786903_1_alg».proof.Proof.KB.RunA
import proofs.«132723_j7645041786903_1_alg».proof.Proof.KB.RunB
import proofs.«132723_j7645041786903_1_alg».proof.Proof.KB.RunC
import proofs.«132723_j7645041786903_1_alg».proof.Proof.KB.Split

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch after point `n`: this point's update of the zero splat on the first column of a grid row, of what the point before
    left elsewhere. -/
noncomputable def scrAt (c : Dev nD) : (n : ℕ) → n < cfg0.N → Vec F S128x128 .f32
  | 0, hn => upd (grid0.coords ⟨0, hn⟩) (blks m c ⟨0, hn⟩) (k0_pay4 (F := F))
  | n + 1, hn => upd (grid0.coords ⟨n + 1, hn⟩) (blks m c ⟨n + 1, hn⟩)
      (if (n + 1) % 16 = 0 then k0_pay4 (F := F) else scrAt c n (Nat.lt_of_succ_lt hn))

theorem scrAt_first (c : Dev nD) (t : Fin cfg0.N) (h0 : t.val % 16 = 0) :
    scrAt m c t.val t.isLt = upd (grid0.coords t) (blks m c t) (k0_pay4 (F := F)) := by
  obtain ⟨n, hn⟩ := t
  cases n with
  | zero => rfl
  | succ n => have h0' : (n + 1) % 16 = 0 := h0; rw [scrAt, if_pos h0']

theorem scrAt_next (c : Dev nD) (t : Fin cfg0.N) (h0 : ¬t.val % 16 = 0) :
    scrAt m c t.val t.isLt = upd (grid0.coords t) (blks m c t) (scrAt m c (t.val - 1) (Nat.lt_of_le_of_lt (Nat.sub_le _ _) t.isLt)) := by
  obtain ⟨n, hn⟩ := t
  cases n with
  | zero => exact absurd (Nat.zero_mod _) h0
  | succ n => have h0' : ¬(n + 1) % 16 = 0 := h0; rw [scrAt, if_neg h0']; rfl

/-- The result block after a point: the head on the scratch on the last column; elsewhere nothing reads it and it is anything. -/
noncomputable def outAt (c : Dev nD) (t : Fin cfg0.N) : Vec F S128x10 .f32 :=
  if t.val % 16 = 15 then head (blks m c t) (scrAt m c t.val t.isLt) else (View.whole cc0_stg15_0).read (Elt F) (View.whole cc0_stg15_0).junk

/-- The invariant before position `n`: the scratch at anything before the first point, at what the point before left afterwards. -/
noncomputable def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare (scrAt m c n hn)

theorem PhiS_pos (c : Dev nD) (n : ℕ) (h : n ≤ cfg0.N) (hz : n ≠ 0) :
    PhiS m c n h = owns (c : Thread nD τ) scM0_0 fullShare (scrAt m c (n - 1) (by omega)) := by
  cases n with
  | zero => exact absurd rfl hz
  | succ n => rfl

theorem PhiS_ex (c : Dev nD) (n : ℕ) (h : n ≤ cfg0.N) : PhiS m c n h ⊢ iprop(∃ d, owns (c : Thread nD τ) scM0_0 fullShare d) := by
  cases n with
  | zero =>
    show (Pipeline.scopedRest (Ix := Unit) (Name := ℕ) (U := UR sig nD τ) (Lvl := ℕ) (Val := Elt F) spec0 c : sProp 𝕄) ⊢ _
    rw [scopedRest0_owns]
  | succ n =>
    rw [show PhiS m c (n + 1) h = owns (c : Thread nD τ) scM0_0 fullShare (scrAt m c n h) from rfl]
    iintro H; iexists _; iexact H

/-- The data of the frame argument: the arrays as the region finds them; after the body each input at its block and the result block
    at `outAt`; the invariant `PhiS`; the state array's share halved between its two readers. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt m c t
    | ⟨_ + 16, h⟩ => absurd h (Nat.not_lt.2 (Nat.le_add_left _ _))
  Φ t := PhiS m c t.val (Nat.le_of_lt_succ t.isLt)
  q w := if w.val = 0 then fullShare.left else if w.val = 1 then fullShare.right else fullShare
  owed _ := 0

/-- Before the body every input memref holds its block. -/
theorem before_eq (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) ∧ (∀ d, (dats m 0 c).before 6 t d = iblk m c 6 t) ∧ (∀ d, (dats m 0 c).before 7 t d = iblk m c 7 t) ∧ (∀ d, (dats m 0 c).before 8 t d = iblk m c 8 t) ∧ (∀ d, (dats m 0 c).before 9 t d = iblk m c 9 t) ∧ (∀ d, (dats m 0 c).before 10 t d = iblk m c 10 t) ∧ (∀ d, (dats m 0 c).before 11 t d = iblk m c 11 t) ∧ (∀ d, (dats m 0 c).before 12 t d = iblk m c 12 t) ∧ (∀ d, (dats m 0 c).before 13 t d = iblk m c 13 t) ∧ (∀ d, (dats m 0 c).before 14 t d = iblk m c 14 t) := by
  refine ⟨?_, ?_, ?_, ?_, ?_, ?_, ?_, ?_, ?_, ?_, ?_, ?_, ?_, ?_, ?_⟩ <;>
    exact fun d => ((dats m 0 c).before_in_eq_fetched _ rfl (fun _ => rfl) (fun _ _ _ => rfl) (fun t => by
      dsimp only [dats]; unfold Dat.blockOf iblk; try rfl) t d).trans (by unfold Dat.fetched Dat.blockOf iblk; try rfl)

set_option maxHeartbeats 8000000 in
/-- The body at any point, in the case the point's column selects: the invariant hands it the scratch and takes it back at this
    point's contents. -/
theorem sound_body (c : Dev nD) (t : Fin cfg0.N) :
    iprop((dats m 0 c).Φ t.castSucc ∗ (dats m 0 c).owesAt () t.castSucc ∗ ins c (opsAt t) (blks m c t)
        iprop(∃ d, owns (c : Thread nD τ) (opsAt t).a17.1 fullShare ((dats m 0 c).before 15 t d)))
      ⊢ wp frame (wpE (defs₀ (F := F)) Variants.none c none) Set.univ (body (grid0.coords t) (opsAt t)) (fun _ =>
        iprop((dats m 0 c).Φ t.succ ∗ (dats m 0 c).owesAt () t.castSucc ∗ ins c (opsAt t) (blks m c t) ((dats m 0 c).leavesExact 15 t))) := by
  rw [show (dats m 0 c).Φ t.succ = owns (c : Thread nD τ) scM0_0 fullShare (scrAt m c t.val t.isLt) from rfl,
    show (dats m 0 c).Φ t.castSucc = PhiS m c t.val (Nat.le_of_lt t.isLt) from rfl]
  unfold ins
  by_cases h1 : t.val % 16 = 15
  · have h0 : ¬t.val % 16 = 0 := by omega
    rw [show (dats m 0 c).leavesExact 15 t = owns (c : Thread nD τ) (opsAt t).a17.1 fullShare (outAt m c t) from by
      unfold Dat.leavesExact; rw [liveAt0_15 t ((hcond0_1 t).mpr h1)]; rfl]
    unfold outAt
    rw [if_pos h1, PhiS_pos m c _ _ (by omega), scrAt_next m c t h0]
    iintro ⟨HS0, Ho, H0, H1, H2, H3, H4, H5, H6, H7, H8, H9, H10, H11, H12, H13, H14, ⟨%d15, H15⟩⟩
    iapply (runC c (grid0.coords t) (opsAt t) (fun h => h0 ((hcond0_0 t).mp h)) ((hcond0_1 t).mpr h1) (blks m c t) _).2.2 Set.univ _
    unfold ins
    iframe H0 H1 H2 H3 H4 H5 H6 H7 H8 H9 H10 H11 H12 H13 H14
    isplitl [H15]; · iexists _; iexact H15
    isplitl [HS0]; · iexact HS0
    iintro ⟨H0, H1, H2, H3, H4, H5, H6, H7, H8, H9, H10, H11, H12, H13, H14, ⟨%e15, H15⟩, ⟨%es0, HS0⟩⟩
    iframe Ho H0 H1 H2 H3 H4 H5 H6 H7 H8 H9 H10 H11 H12 H13 H14
    isplitl [HS0]
    · unfold owns; iexists _; isplitr
      swap; · iexact HS0
      ipureintro; exact runC_scr c _ _ _ _ _ _ _ es0
    unfold owns; iexists _; isplitr
    swap; · iexact H15
    ipureintro; exact runC_out c _ _ _ _ _ _ _ e15
  · have hc1 : ¬cond0_1 (grid0.coords t) := fun h => h1 ((hcond0_1 t).mp h)
    rw [Dat.leavesExact_idle (dats m 0 c) 15 t (idleAt0_15 t hc1) (noFlush0_15 t hc1)]
    by_cases h0 : t.val % 16 = 0
    · rw [scrAt_first m c t h0]
      iintro ⟨HS0, Ho, H0, H1, H2, H3, H4, H5, H6, H7, H8, H9, H10, H11, H12, H13, H14, ⟨%d15, H15⟩⟩
      iapply (runA c (grid0.coords t) (opsAt t) ((hcond0_0 t).mpr h0) hc1 (blks m c t) _).2.2 Set.univ _
      unfold ins
      iframe H0 H1 H2 H3 H4 H5 H6 H7 H8 H9 H10 H11 H12 H13 H14 H15
      isplitl [HS0]; · iapply PhiS_ex m c; iexact HS0
      iintro ⟨H0, H1, H2, H3, H4, H5, H6, H7, H8, H9, H10, H11, H12, H13, H14, H15, ⟨%es0, HS0⟩⟩
      iframe Ho H0 H1 H2 H3 H4 H5 H6 H7 H8 H9 H10 H11 H12 H13 H14
      isplitl [HS0]
      · unfold owns; iexists _; isplitr
        swap; · iexact HS0
        ipureintro; exact runA_scr c _ _ _ _ _ _ _ es0
      iexists _; iexact H15
    · rw [PhiS_pos m c _ _ (by omega), scrAt_next m c t h0]
      iintro ⟨HS0, Ho, H0, H1, H2, H3, H4, H5, H6, H7, H8, H9, H10, H11, H12, H13, H14, ⟨%d15, H15⟩⟩
      iapply (runB c (grid0.coords t) (opsAt t) (fun h => h0 ((hcond0_0 t).mp h)) hc1 (blks m c t) _ _).2.2 Set.univ _
      unfold ins
      iframe H0 H1 H2 H3 H4 H5 H6 H7 H8 H9 H10 H11 H12 H13 H14 H15
      isplitl [HS0]; · iexact HS0
      iintro ⟨H0, H1, H2, H3, H4, H5, H6, H7, H8, H9, H10, H11, H12, H13, H14, H15, ⟨%es0, HS0⟩⟩
      iframe Ho H0 H1 H2 H3 H4 H5 H6 H7 H8 H9 H10 H11 H12 H13 H14
      isplitl [HS0]
      · unfold owns; iexists _; isplitr
        swap; · iexact HS0
        ipureintro; exact runB_scr c _ _ _ _ _ _ _ _ es0
      iexists _; iexact H15

/-- The body's obligation at every point: the windows one by one are the input memrefs at their blocks and the result window. -/
theorem body_obligation (c : Dev nD) : BodyObligation (dats (F := F) m 0 c) (defs₀ (F := F)) Variants.none () Set.univ := fun t => by
  rw [bigSep_W0, bigSep_W0]
  obtain ⟨b0, b1, b2, b3, b4, b5, b6, b7, b8, b9, b10, b11, b12, b13, b14⟩ := before_eq m c t
  simp only [b0, b1, b2, b3, b4, b5, b6, b7, b8, b9, b10, b11, b12, b13, b14]
  refine .trans ?_ (sound_body m c t)
  unfold ins
  iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
  isplitl [HS0]; · iexact HS0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem hin (c : Dev nD) : (Pipeline.scopedRest (Ix := Unit) (Name := ℕ) (U := UR sig nD τ) (Lvl := ℕ) (Val := Elt F) spec0 c : sProp 𝕄) ⊢ (dats m 0 c).Φ 0 :=
  .rfl

/-- After the last point the scratch's contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [scopedRest0_owns]
  exact PhiS_ex m c (Fin.last cfg0.N).val (Nat.le_of_lt_succ (Fin.last cfg0.N).isLt)

set_option backward.isDefEq.respectTransparency.types false in
theorem run_main : θ_run defs (onTc (τ := τ) (main (F := F))) (s₀ m ρ) (Pipeline.FramePost cfgs (dats m) 0 (V m)) :=
  Cert.Lib.θ_run_frame_track_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := fun c => arrays_split_shared c (V m c) (dats m 0 c) (fun _ => rfl) (fun _ => rfl)) (hin := hin m) (hout := hout m)

/-- After the frame run every argument is as launched: eight are arrays of input windows and end at their entry contents, six are
    transposed by the host and never touched by the region. -/
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) :=
  ⟨((h c).1 0).trans (((dats m 0 c).arrAt_in 0 rfl _).trans (V_arg m c main_arg0)),
    ((h c).1 2).trans (((dats m 0 c).arrAt_in 2 rfl _).trans (V_arg m c main_arg1)),
    ((h c).2 main_arg2 (Pipeline.mem_restRefs_of main_arg2 (by decide) (by decide))).trans (V_arg m c main_arg2),
    ((h c).1 4).trans (((dats m 0 c).arrAt_in 4 rfl _).trans (V_arg m c main_arg3)),
    ((h c).2 main_arg4 (Pipeline.mem_restRefs_of main_arg4 (by decide) (by decide))).trans (V_arg m c main_arg4),
    ((h c).1 6).trans (((dats m 0 c).arrAt_in 6 rfl _).trans (V_arg m c main_arg5)),
    ((h c).2 main_arg6 (Pipeline.mem_restRefs_of main_arg6 (by decide) (by decide))).trans (V_arg m c main_arg6),
    ((h c).1 8).trans (((dats m 0 c).arrAt_in 8 rfl _).trans (V_arg m c main_arg7)),
    ((h c).2 main_arg8 (Pipeline.mem_restRefs_of main_arg8 (by decide) (by decide))).trans (V_arg m c main_arg8),
    ((h c).1 10).trans (((dats m 0 c).arrAt_in 10 rfl _).trans (V_arg m c main_arg9)),
    ((h c).2 main_arg10 (Pipeline.mem_restRefs_of main_arg10 (by decide) (by decide))).trans (V_arg m c main_arg10),
    ((h c).1 12).trans (((dats m 0 c).arrAt_in 12 rfl _).trans (V_arg m c main_arg11)),
    ((h c).2 main_arg12 (Pipeline.mem_restRefs_of main_arg12 (by decide) (by decide))).trans (V_arg m c main_arg12),
    ((h c).1 14).trans (((dats m 0 c).arrAt_in 14 rfl _).trans (V_arg m c main_arg13))⟩

end Cert.Kernel.Fr

end
-- ==== Proof.KI.Runs.lean ====
import proofs.«132723_j7645041786903_1_alg».proof.Proof.Gen.KernelIdeal.Launch
import proofs.«132723_j7645041786903_1_alg».proof.Proof.Gen.KernelIdeal.Skeleton
import proofs.«132723_j7645041786903_1_alg».proof.Proof.Gen.KernelIdeal.Points
import proofs.«132723_j7645041786903_1_alg».proof.Proof.LibSharedFrame
import Idealize.ShloMosaic.Lib.Pipeline.FrameBody
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no host transpose writes is found by the region as launched. -/
theorem V_arg (c : Dev nD) (b : Ref sig .tc) (hb : ∀ v ∈ [main_v0, main_v1, main_v2, main_v3, main_v4, main_v5], b ≠ v := by decide) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    repeat' apply And.intro
    all_goals exact StableHlo.devRef_ne_of_ne (hb _ (by decide))))

noncomputable def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt : ∀ w : Fin 16, w ≠ 15 → ∀ t : Fin cfg0.N, cfg0.idle w (grid0.coords t) = false := by decide +kernel
theorem idleAt0_15 : ∀ t : Fin cfg0.N, ¬cond0_1 (grid0.coords t) → cfg0.idle 15 (grid0.coords t) = true := by decide +kernel
theorem noFlush0_15 : ∀ t : Fin cfg0.N, ¬cond0_1 (grid0.coords t) → (cfg0.win 15).flush t = false := by decide +kernel
theorem liveAt0_15 : ∀ t : Fin cfg0.N, cond0_1 (grid0.coords t) → cfg0.idle 15 (grid0.coords t) = false := by decide +kernel

/-- A memref that is a whole buffer. -/
abbrev WM (S : Shape) : Type := { a : Memref sig .tc .vmem S .f32 // a.IsWhole }

/-- The body's operands: fifteen inputs, the result window, the running-maximum scratch. -/
structure Ops where
  a2 : WM S128x10
  a3 : WM S64x10
  a4 : WM S128x10
  a5 : WM S11x64
  a6 : WM S64
  a7 : WM S64x128
  a8 : WM S128
  a9 : WM S138x64
  a10 : WM S64
  a11 : WM S64x128
  a12 : WM S128
  a13 : WM S128x64
  a14 : WM S64
  a15 : WM S64x10
  a16 : WM S10
  a17 : WM S128x10
  a18 : WM S128x128

/-- The buffer that carries the running maximum. -/
abbrev scM0_0 : Memref sig .tc .vmem S128x128 .f32 := Memref.whole cc0_scratch0

/-- The body's operands at point `t`. -/
noncomputable def opsAt (t : Fin cfg0.N) : Ops :=
  ⟨⟨win0_0.stage (cfg0.slots t 0), hstage0_0 ((cfg0.slots t 0).cast nbuf0_0)⟩,
    ⟨win0_1.stage (cfg0.slots t 1), hstage0_1 ((cfg0.slots t 1).cast nbuf0_1)⟩,
    ⟨win0_2.stage (cfg0.slots t 2), hstage0_2 ((cfg0.slots t 2).cast nbuf0_2)⟩,
    ⟨win0_3.stage (cfg0.slots t 3), hstage0_3 ((cfg0.slots t 3).cast nbuf0_3)⟩,
    ⟨win0_4.stage (cfg0.slots t 4), hstage0_4 ((cfg0.slots t 4).cast nbuf0_4)⟩,
    ⟨win0_5.stage (cfg0.slots t 5), hstage0_5 ((cfg0.slots t 5).cast nbuf0_5)⟩,
    ⟨win0_6.stage (cfg0.slots t 6), hstage0_6 ((cfg0.slots t 6).cast nbuf0_6)⟩,
    ⟨win0_7.stage (cfg0.slots t 7), hstage0_7 ((cfg0.slots t 7).cast nbuf0_7)⟩,
    ⟨win0_8.stage (cfg0.slots t 8), hstage0_8 ((cfg0.slots t 8).cast nbuf0_8)⟩,
    ⟨win0_9.stage (cfg0.slots t 9), hstage0_9 ((cfg0.slots t 9).cast nbuf0_9)⟩,
    ⟨win0_10.stage (cfg0.slots t 10), hstage0_10 ((cfg0.slots t 10).cast nbuf0_10)⟩,
    ⟨win0_11.stage (cfg0.slots t 11), hstage0_11 ((cfg0.slots t 11).cast nbuf0_11)⟩,
    ⟨win0_12.stage (cfg0.slots t 12), hstage0_12 ((cfg0.slots t 12).cast nbuf0_12)⟩,
    ⟨win0_13.stage (cfg0.slots t 13), hstage0_13 ((cfg0.slots t 13).cast nbuf0_13)⟩,
    ⟨win0_14.stage (cfg0.slots t 14), hstage0_14 ((cfg0.slots t 14).cast nbuf0_14)⟩,
    ⟨win0_15.stage (cfg0.slots t 15), hstage0_15 ((cfg0.slots t 15).cast nbuf0_15)⟩,
    ⟨scM0_0, Memref.isWhole_whole _⟩⟩

abbrev body (i : grid0.Coords) (o : Ops) : Prog (TpuEff nD τ sig (Elt F) Λ₀ .tc) PUnit :=
  cc0__kernel i o.a2.1 o.a2.2 o.a3.1 o.a3.2 o.a4.1 o.a4.2 o.a5.1 o.a5.2 o.a6.1 o.a6.2 o.a7.1 o.a7.2 o.a8.1 o.a8.2 o.a9.1 o.a9.2 o.a10.1 o.a10.2 o.a11.1 o.a11.2 o.a12.1 o.a12.2 o.a13.1 o.a13.2 o.a14.1 o.a14.2 o.a15.1 o.a15.2 o.a16.1 o.a16.2 o.a17.1 o.a17.2 o.a18.1 o.a18.2

/-- The fifteen input blocks of a point. -/
structure Blks (F : FTy → Type) where
  x0 : Vec F S128x10 .f32
  x1 : Vec F S64x10 .f32
  x2 : Vec F S128x10 .f32
  x3 : Vec F S11x64 .f32
  x4 : Vec F S64 .f32
  x5 : Vec F S64x128 .f32
  x6 : Vec F S128 .f32
  x7 : Vec F S138x64 .f32
  x8 : Vec F S64 .f32
  x9 : Vec F S64x128 .f32
  x10 : Vec F S128 .f32
  x11 : Vec F S128x64 .f32
  x12 : Vec F S64 .f32
  x13 : Vec F S64x10 .f32
  x14 : Vec F S10 .f32

noncomputable def blks (c : Dev nD) (t : Fin cfg0.N) : Blks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

/-- The input memrefs at their blocks, then `R`. -/
noncomputable def ins (c : Dev nD) (o : Ops) (x : Blks F) (R : sProp 𝕄) : sProp 𝕄 :=
  iprop(owns (c : Thread nD τ) o.a2.1 fullShare x.x0 ∗ owns (c : Thread nD τ) o.a3.1 fullShare x.x1 ∗ owns (c : Thread nD τ) o.a4.1 fullShare x.x2 ∗ owns (c : Thread nD τ) o.a5.1 fullShare x.x3 ∗ owns (c : Thread nD τ) o.a6.1 fullShare x.x4 ∗ owns (c : Thread nD τ) o.a7.1 fullShare x.x5 ∗ owns (c : Thread nD τ) o.a8.1 fullShare x.x6 ∗ owns (c : Thread nD τ) o.a9.1 fullShare x.x7 ∗ owns (c : Thread nD τ) o.a10.1 fullShare x.x8 ∗ owns (c : Thread nD τ) o.a11.1 fullShare x.x9 ∗ owns (c : Thread nD τ) o.a12.1 fullShare x.x10 ∗ owns (c : Thread nD τ) o.a13.1 fullShare x.x11 ∗ owns (c : Thread nD τ) o.a14.1 fullShare x.x12 ∗ owns (c : Thread nD τ) o.a15.1 fullShare x.x13 ∗ owns (c : Thread nD τ) o.a16.1 fullShare x.x14 ∗ R)

/-- The running maximum `s` raised by the masked second-layer outputs of one tile of pairs. -/
noncomputable def upd (i : grid0.Coords) (x : Blks F) (s : Vec F S128x128 .f32) : Vec F S128x128 .f32 :=
  k0_pay1 (k0_pay6 x.x0 x.x1) (k0_pay7 i x.x0 x.x1 x.x3 x.x4) (k0_pay8 (F := F)) x.x5 x.x6 s

/-- The four-layer head on pooled rows `s`. -/
noncomputable def head (x : Blks F) (s : Vec F S128x128 .f32) : Vec F S128x10 .f32 :=
  k0_pay2 x.x0 x.x2 (k0_pay3 x.x0 s x.x2 x.x7 x.x8 x.x9 x.x10 x.x11 x.x12) x.x13 x.x14

/-- A run of the body in one control case: piece lists with which the body, from the inputs at their blocks, the result window as
    `Win` says and the scratch as `S` says, reaches any continuation that takes the inputs back with the result window as `W` says of
    its pieces and the scratch with its pieces written. -/
noncomputable def Run (c : Dev nD) (i : grid0.Coords) (o : Ops) (x : Blks F) (Win S : sProp 𝕄) (W : List (View.Piece (Elt F) S128x10 .f32) → sProp 𝕄) : Type :=
  Σ' (L15 : List (View.Piece (Elt F) S128x10 .f32)), { LS0 : List (View.Piece (Elt F) S128x128 .f32) //
    ∀ (E : Set ℕ) (K : PUnit → sProp 𝕄),
      ins c o x iprop(Win ∗ S
          ∗ (ins c o x iprop(W L15 ∗ (∃ f, o.a18.1.view.loc (c : Thread nD τ) ↦[o.a18.1.view.set]{fullShare} o.a18.1.view.writes (Elt F) f LS0)) -∗ K ⟨⟩))
        ⊢ wp frame (wpE (defs₀ (F := F)) Variants.none c none) E (body i o) K }

theorem off2 : (![0, 0] : Fin 2 → Nat) = fun _ => 0 := funext fun a => by fin_cases a <;> rfl
theorem off1 : (![0] : Fin 1 → Nat) = fun _ => 0 := funext fun a => by fin_cases a; rfl

theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d)) := by
  rw [scopedRest0_eq]; simp only [scM0_0, owns_whole]; try rfl

end Cert.KernelIdeal.Fr

end
-- ==== Proof.KI.RunA.lean ====
import proofs.«132723_j7645041786903_1_alg».proof.Proof.KI.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first column of a grid row: the scratch is zeroed, then raised by this tile; the result window is left as found. -/
noncomputable def runA (c : Dev nD) (i : grid0.Coords) (o : Ops) (hc0 : cond0_0 i) (hc1 : ¬cond0_1 i) (x : Blks F) (xi15 : Vec F S128x10 .f32) :
    Run c i o x (owns (c : Thread nD τ) o.a17.1 fullShare xi15) iprop(∃ d, owns (c : Thread nD τ) o.a18.1 fullShare d)
      (fun _ => owns (c : Thread nD τ) o.a17.1 fullShare xi15) := by
  refine ⟨[], ?_, fun E K => ?run⟩
  case run =>
    unfold ins body; dsimp only
    simp only [cc0__kernel_eq_skeleton]; unfold cc0__kernel_skel
    simp only [k0_part1_eq_skeleton, k0_part2_eq_skeleton, owns_eq_rep]
    iintro ⟨H0, H1, H2, H3, H4, H5, H6, H7, H8, H9, H10, H11, H12, H13, H14, H15, ⟨%ds0, HS0⟩, Hk⟩
    sl_exec (disch := first | exact hc0 | exact hc1)
    sl_step
    iapply Hk
    iframe H0 H1 H2 H3 H4 H5 H6 H7 H8 H9 H10 H11 H12 H13 H14
    iframe H15
    iexists _; iexact HS0

/-- Its scratch pieces read back. -/
theorem runA_scr (c : Dev nD) (i : grid0.Coords) (o : Ops) (hc0 : cond0_0 i) (hc1 : ¬cond0_1 i) (x : Blks F) (xi15 : Vec F S128x10 .f32)
    (v : View sig .tc .vmem S128x128 .f32) (f : v.ty.Contents (Elt F)) :
    v.read (Elt F) (v.writes (Elt F) f (runA c i o hc0 hc1 x xi15).2.1) = upd i x (k0_pay4 (F := F)) := by
  rw [View.read_writes_eq_canon _ _ _ (View.cover_of_tiledL _ S128x128.size (by sl_kernel_rfl))]
  unfold runA upd
  dsimp only
  try sl_unfold_words
  rw [View.canon_cons_unit_zero (S := S128x128) off2, View.readCov_unit_zero (S := S128x128) _ off2]
  simp only [View.readAt_eq_ld, View.read_rep, View.ld_unit_zero (S := S128x10) off2, View.ld_unit_zero (S := S64x10) off2, View.ld_unit_zero (S := S11x64) off2, View.ld_unit_zero (S := S64x128) off2, View.ld_unit_zero (S := S128x128) off2, View.ld_unit_zero (S := S138x64) off2, View.ld_unit_zero (S := S128x64) off2, View.ld_unit_zero (S := S64) off1, View.ld_unit_zero (S := S128) off1, View.ld_unit_zero (S := S10) off1]

end Cert.KernelIdeal.Fr

end
-- ==== Proof.KI.RunB.lean ====
import proofs.«132723_j7645041786903_1_alg».proof.Proof.KI.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A middle column: the scratch the point before left is raised by this tile; the result window is left as found. -/
noncomputable def runB (c : Dev nD) (i : grid0.Coords) (o : Ops) (hc0 : ¬cond0_0 i) (hc1 : ¬cond0_1 i) (x : Blks F) (xi15 : Vec F S128x10 .f32)
    (xs0 : Vec F S128x128 .f32) :
    Run c i o x (owns (c : Thread nD τ) o.a17.1 fullShare xi15) (owns (c : Thread nD τ) o.a18.1 fullShare xs0)
      (fun _ => owns (c : Thread nD τ) o.a17.1 fullShare xi15) := by
  refine ⟨[], ?_, fun E K => ?run⟩
  case run =>
    unfold ins body; dsimp only
    simp only [cc0__kernel_eq_skeleton]; unfold cc0__kernel_skel
    simp only [k0_part1_eq_skeleton, k0_part2_eq_skeleton, owns_eq_rep]
    iintro ⟨H0, H1, H2, H3, H4, H5, H6, H7, H8, H9, H10, H11, H12, H13, H14, H15, HS0, Hk⟩
    sl_exec (disch := first | exact hc0 | exact hc1)
    sl_step
    iapply Hk
    iframe H0 H1 H2 H3 H4 H5 H6 H7 H8 H9 H10 H11 H12 H13 H14
    iframe H15
    iexists _; iexact HS0

/-- Its scratch pieces read back. -/
theorem runB_scr (c : Dev nD) (i : grid0.Coords) (o : Ops) (hc0 : ¬cond0_0 i) (hc1 : ¬cond0_1 i) (x : Blks F) (xi15 : Vec F S128x10 .f32) (xs0 : Vec F S128x128 .f32)
    (v : View sig .tc .vmem S128x128 .f32) (f : v.ty.Contents (Elt F)) :
    v.read (Elt F) (v.writes (Elt F) f (runB c i o hc0 hc1 x xi15 xs0).2.1) = upd i x xs0 := by
  rw [View.read_writes_eq_canon _ _ _ (View.cover_of_tiledL _ S128x128.size (by sl_kernel_rfl))]
  unfold runB upd
  dsimp only
  try sl_unfold_words
  rw [View.canon_unit_zero off2]
  simp only [View.readAt_eq_ld, View.read_rep, View.ld_unit_zero (S := S128x10) off2, View.ld_unit_zero (S := S64x10) off2, View.ld_unit_zero (S := S11x64) off2, View.ld_unit_zero (S := S64x128) off2, View.ld_unit_zero (S := S128x128) off2, View.ld_unit_zero (S := S138x64) off2, View.ld_unit_zero (S := S128x64) off2, View.ld_unit_zero (S := S64) off1, View.ld_unit_zero (S := S128) off1, View.ld_unit_zero (S := S10) off1]

end Cert.KernelIdeal.Fr

end
-- ==== Proof.KI.RunC.lean ====
import proofs.«132723_j7645041786903_1_alg».proof.Proof.KI.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last column: the scratch is raised by this tile, the head runs on it and the result block is stored. -/
noncomputable def runC (c : Dev nD) (i : grid0.Coords) (o : Ops) (hc0 : ¬cond0_0 i) (hc1 : cond0_1 i) (x : Blks F) (xs0 : Vec F S128x128 .f32) :
    Run c i o x iprop(∃ d, owns (c : Thread nD τ) o.a17.1 fullShare d) (owns (c : Thread nD τ) o.a18.1 fullShare xs0)
      (fun L15 => iprop(∃ f, o.a17.1.view.loc (c : Thread nD τ) ↦[o.a17.1.view.set]{fullShare} o.a17.1.view.writes (Elt F) f L15)) := by
  refine ⟨?_, ?_, fun E K => ?run⟩
  case run =>
    unfold ins body; dsimp only
    simp only [cc0__kernel_eq_skeleton]; unfold cc0__kernel_skel
    simp only [k0_part1_eq_skeleton, k0_part2_eq_skeleton, owns_eq_rep]
    iintro ⟨H0, H1, H2, H3, H4, H5, H6, H7, H8, H9, H10, H11, H12, H13, H14, ⟨%d15, H15⟩, HS0, Hk⟩
    sl_exec (disch := first | exact hc0 | exact hc1)
    sl_step
    iapply Hk
    iframe H0 H1 H2 H3 H4 H5 H6 H7 H8 H9 H10 H11 H12 H13 H14
    isplitl [H15]; · iexists _; iexact H15
    iexists _; iexact HS0

/-- Its scratch pieces read back. -/
theorem runC_scr (c : Dev nD) (i : grid0.Coords) (o : Ops) (hc0 : ¬cond0_0 i) (hc1 : cond0_1 i) (x : Blks F) (xs0 : Vec F S128x128 .f32)
    (v : View sig .tc .vmem S128x128 .f32) (f : v.ty.Contents (Elt F)) :
    v.read (Elt F) (v.writes (Elt F) f (runC c i o hc0 hc1 x xs0).2.1) = upd i x xs0 := by
  rw [View.read_writes_eq_canon _ _ _ (View.cover_of_tiledL _ S128x128.size (by sl_kernel_rfl))]
  unfold runC upd
  dsimp only
  try sl_unfold_words
  rw [View.canon_unit_zero off2]
  simp only [View.readAt_eq_ld, View.read_rep, View.ld_unit_zero (S := S128x10) off2, View.ld_unit_zero (S := S64x10) off2, View.ld_unit_zero (S := S11x64) off2, View.ld_unit_zero (S := S64x128) off2, View.ld_unit_zero (S := S128x128) off2, View.ld_unit_zero (S := S138x64) off2, View.ld_unit_zero (S := S128x64) off2, View.ld_unit_zero (S := S64) off1, View.ld_unit_zero (S := S128) off1, View.ld_unit_zero (S := S10) off1]

/-- Its result pieces read back: the head on the updated scratch. -/
theorem runC_out (c : Dev nD) (i : grid0.Coords) (o : Ops) (hc0 : ¬cond0_0 i) (hc1 : cond0_1 i) (x : Blks F) (xs0 : Vec F S128x128 .f32)
    (v : View sig .tc .vmem S128x10 .f32) (f : v.ty.Contents (Elt F)) :
    v.read (Elt F) (v.writes (Elt F) f (runC c i o hc0 hc1 x xs0).1) = head x (upd i x xs0) := by
  rw [View.read_writes_eq_canon _ _ _ (View.cover_of_tiledL _ S128x10.size (by sl_kernel_rfl))]
  unfold runC head upd
  dsimp only
  try sl_unfold_words
  rw [View.canon_unit_zero off2]
  simp only [View.readCov_unit_zero (S := S128x128) _ off2, View.readAt_eq_ld, View.read_rep, View.ld_unit_zero (S := S128x10) off2, View.ld_unit_zero (S := S64x10) off2, View.ld_unit_zero (S := S11x64) off2, View.ld_unit_zero (S := S64x128) off2, View.ld_unit_zero (S := S128x128) off2, View.ld_unit_zero (S := S138x64) off2, View.ld_unit_zero (S := S128x64) off2, View.ld_unit_zero (S := S64) off1, View.ld_unit_zero (S := S128) off1, View.ld_unit_zero (S := S10) off1]

end Cert.KernelIdeal.Fr

end
-- ==== Proof.KI.Split.lean ====
import proofs.«132723_j7645041786903_1_alg».proof.Proof.KI.Runs
import Mathlib.Tactic.FinCases

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each array's buffer goes whole to its window; the state array, read by two windows, has its full share halved between them. -/
theorem arrays_split_shared (c : Dev nD) (V' : (b : Ref sig .tc) → Buf (Elt F) ((c : Thread nD τ).loc b))
    (dat : Dat τ (Elt F) Unit ℕ (UR sig nD τ) ℕ cfg0 c)
    (hA : ∀ w, dat.A w = V' (Pipeline.arrRef spec0 w))
    (hq : ∀ w : Fin cfg0.W, dat.q w = if w.val = 0 then fullShare.left else if w.val = 1 then fullShare.right else fullShare) :
    (Pipeline.arrBufs (Ix := Unit) (Name := ℕ) (U := UR sig nD τ) (Lvl := ℕ) spec0 c V' : sProp 𝕄) ⊢ dat.arrays (dat.arrAt · 0) := by
  have hshare : ∀ w : Fin 16, dat.share w = if w.val = 0 then fullShare.left else if w.val = 1 then fullShare.right else fullShare := by
    intro w; unfold Dat.share; rw [hq w]
    fin_cases w <;> rfl
  have harr : dat.arrays (dat.arrAt · 0) = bigSep Finset.univ fun w : Fin 16 =>
      ((((c : Thread nD τ).loc (Pipeline.arrRef spec0 w)) ↦{if w.val = 0 then fullShare.left else if w.val = 1 then fullShare.right else fullShare}
        V' (Pipeline.arrRef spec0 w)) : sProp 𝕄) := by
    unfold Dat.arrays
    exact bigSep_congr fun w _ => by
      rw [(arr_whole0 w).set_eq_univ, hshare w]
      show (_ ↦{_} dat.A w) = _
      rw [hA w]
  have hR : dat.arrays (dat.arrAt · 0) = (iprop((((c : Thread nD τ).loc main_arg0) ↦{fullShare.left} V' main_arg0) ∗ (((c : Thread nD τ).loc main_arg0) ↦{fullShare.right} V' main_arg0) ∗ (((c : Thread nD τ).loc main_arg1) ↦{fullShare} V' main_arg1) ∗ (((c : Thread nD τ).loc main_v0) ↦{fullShare} V' main_v0) ∗ (((c : Thread nD τ).loc main_arg3) ↦{fullShare} V' main_arg3) ∗ (((c : Thread nD τ).loc main_v1) ↦{fullShare} V' main_v1) ∗ (((c : Thread nD τ).loc main_arg5) ↦{fullShare} V' main_arg5) ∗ (((c : Thread nD τ).loc main_v2) ↦{fullShare} V' main_v2) ∗ (((c : Thread nD τ).loc main_arg7) ↦{fullShare} V' main_arg7) ∗ (((c : Thread nD τ).loc main_v3) ↦{fullShare} V' main_v3) ∗ (((c : Thread nD τ).loc main_arg9) ↦{fullShare} V' main_arg9) ∗ (((c : Thread nD τ).loc main_v4) ↦{fullShare} V' main_v4) ∗ (((c : Thread nD τ).loc main_arg11) ↦{fullShare} V' main_arg11) ∗ (((c : Thread nD τ).loc main_v5) ↦{fullShare} V' main_v5) ∗ (((c : Thread nD τ).loc main_arg13) ↦{fullShare} V' main_arg13) ∗ (((c : Thread nD τ).loc main_v6) ↦{fullShare} V' main_v6)) : sProp 𝕄) := by
    rw [harr, bigSep_W0]; rfl
  have hL : (Pipeline.arrBufs (Ix := Unit) (Name := ℕ) (U := UR sig nD τ) (Lvl := ℕ) spec0 c V' : sProp 𝕄)
      = (iprop((((c : Thread nD τ).loc main_arg0) ↦{fullShare} V' main_arg0) ∗ (((c : Thread nD τ).loc main_arg1) ↦{fullShare} V' main_arg1) ∗ (((c : Thread nD τ).loc main_v0) ↦{fullShare} V' main_v0) ∗ (((c : Thread nD τ).loc main_arg3) ↦{fullShare} V' main_arg3) ∗ (((c : Thread nD τ).loc main_v1) ↦{fullShare} V' main_v1) ∗ (((c : Thread nD τ).loc main_arg5) ↦{fullShare} V' main_arg5) ∗ (((c : Thread nD τ).loc main_v2) ↦{fullShare} V' main_v2) ∗ (((c : Thread nD τ).loc main_arg7) ↦{fullShare} V' main_arg7) ∗ (((c : Thread nD τ).loc main_v3) ↦{fullShare} V' main_v3) ∗ (((c : Thread nD τ).loc main_arg9) ↦{fullShare} V' main_arg9) ∗ (((c : Thread nD τ).loc main_v4) ↦{fullShare} V' main_v4) ∗ (((c : Thread nD τ).loc main_arg11) ↦{fullShare} V' main_arg11) ∗ (((c : Thread nD τ).loc main_v5) ↦{fullShare} V' main_v5) ∗ (((c : Thread nD τ).loc main_arg13) ↦{fullShare} V' main_arg13) ∗ (((c : Thread nD τ).loc main_v6) ↦{fullShare} V' main_v6)) : sProp 𝕄) := by
    unfold Pipeline.arrBufs
    exact bigSep_eq_bigSepL_of_eq [main_arg0, main_arg1, main_v0, main_arg3, main_v1, main_arg5, main_v2, main_arg7, main_v3, main_arg9, main_v4, main_arg11, main_v5, main_arg13, main_v6] (by decide) (by decide) _
  rw [hL, hR]
  iintro ⟨H0, H1, H2, H3, H4, H5, H6, H7, H8, H9, H10, H11, H12, H13, H14⟩
  ihave H0 := (pointsTo_share (PosShare.mem_left_op_right fullShare)).1 $$ H0
  icases H0 with ⟨H0l, H0r⟩
  iframe

end Cert.KernelIdeal.Fr

end
-- ==== Proof.KI.Frame.lean ====
import proofs.«132723_j7645041786903_1_alg».proof.Proof.KI.RunA
import proofs.«132723_j7645041786903_1_alg».proof.Proof.KI.RunB
import proofs.«132723_j7645041786903_1_alg».proof.Proof.KI.RunC
import proofs.«132723_j7645041786903_1_alg».proof.Proof.KI.Split

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch after point `n`: this point's update of the zero splat on the first column of a grid row, of what the point before
    left elsewhere. -/
noncomputable def scrAt (c : Dev nD) : (n : ℕ) → n < cfg0.N → Vec F S128x128 .f32
  | 0, hn => upd (grid0.coords ⟨0, hn⟩) (blks m c ⟨0, hn⟩) (k0_pay4 (F := F))
  | n + 1, hn => upd (grid0.coords ⟨n + 1, hn⟩) (blks m c ⟨n + 1, hn⟩)
      (if (n + 1) % 16 = 0 then k0_pay4 (F := F) else scrAt c n (Nat.lt_of_succ_lt hn))

theorem scrAt_first (c : Dev nD) (t : Fin cfg0.N) (h0 : t.val % 16 = 0) :
    scrAt m c t.val t.isLt = upd (grid0.coords t) (blks m c t) (k0_pay4 (F := F)) := by
  obtain ⟨n, hn⟩ := t
  cases n with
  | zero => rfl
  | succ n => have h0' : (n + 1) % 16 = 0 := h0; rw [scrAt, if_pos h0']

theorem scrAt_next (c : Dev nD) (t : Fin cfg0.N) (h0 : ¬t.val % 16 = 0) :
    scrAt m c t.val t.isLt = upd (grid0.coords t) (blks m c t) (scrAt m c (t.val - 1) (Nat.lt_of_le_of_lt (Nat.sub_le _ _) t.isLt)) := by
  obtain ⟨n, hn⟩ := t
  cases n with
  | zero => exact absurd (Nat.zero_mod _) h0
  | succ n => have h0' : ¬(n + 1) % 16 = 0 := h0; rw [scrAt, if_neg h0']; rfl

/-- The result block after a point: the head on the scratch on the last column; elsewhere nothing reads it and it is anything. -/
noncomputable def outAt (c : Dev nD) (t : Fin cfg0.N) : Vec F S128x10 .f32 :=
  if t.val % 16 = 15 then head (blks m c t) (scrAt m c t.val t.isLt) else (View.whole cc0_stg15_0).read (Elt F) (View.whole cc0_stg15_0).junk

/-- The invariant before position `n`: the scratch at anything before the first point, at what the point before left afterwards. -/
noncomputable def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare (scrAt m c n hn)

theorem PhiS_pos (c : Dev nD) (n : ℕ) (h : n ≤ cfg0.N) (hz : n ≠ 0) :
    PhiS m c n h = owns (c : Thread nD τ) scM0_0 fullShare (scrAt m c (n - 1) (by omega)) := by
  cases n with
  | zero => exact absurd rfl hz
  | succ n => rfl

theorem PhiS_ex (c : Dev nD) (n : ℕ) (h : n ≤ cfg0.N) : PhiS m c n h ⊢ iprop(∃ d, owns (c : Thread nD τ) scM0_0 fullShare d) := by
  cases n with
  | zero =>
    show (Pipeline.scopedRest (Ix := Unit) (Name := ℕ) (U := UR sig nD τ) (Lvl := ℕ) (Val := Elt F) spec0 c : sProp 𝕄) ⊢ _
    rw [scopedRest0_owns]
  | succ n =>
    rw [show PhiS m c (n + 1) h = owns (c : Thread nD τ) scM0_0 fullShare (scrAt m c n h) from rfl]
    iintro H; iexists _; iexact H

/-- The data of the frame argument: the arrays as the region finds them; after the body each input at its block and the result block
    at `outAt`; the invariant `PhiS`; the state array's share halved between its two readers. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt m c t
    | ⟨_ + 16, h⟩ => absurd h (Nat.not_lt.2 (Nat.le_add_left _ _))
  Φ t := PhiS m c t.val (Nat.le_of_lt_succ t.isLt)
  q w := if w.val = 0 then fullShare.left else if w.val = 1 then fullShare.right else fullShare
  owed _ := 0

/-- Before the body every input memref holds its block. -/
theorem before_eq (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) ∧ (∀ d, (dats m 0 c).before 6 t d = iblk m c 6 t) ∧ (∀ d, (dats m 0 c).before 7 t d = iblk m c 7 t) ∧ (∀ d, (dats m 0 c).before 8 t d = iblk m c 8 t) ∧ (∀ d, (dats m 0 c).before 9 t d = iblk m c 9 t) ∧ (∀ d, (dats m 0 c).before 10 t d = iblk m c 10 t) ∧ (∀ d, (dats m 0 c).before 11 t d = iblk m c 11 t) ∧ (∀ d, (dats m 0 c).before 12 t d = iblk m c 12 t) ∧ (∀ d, (dats m 0 c).before 13 t d = iblk m c 13 t) ∧ (∀ d, (dats m 0 c).before 14 t d = iblk m c 14 t) := by
  refine ⟨?_, ?_, ?_, ?_, ?_, ?_, ?_, ?_, ?_, ?_, ?_, ?_, ?_, ?_, ?_⟩ <;>
    exact fun d => ((dats m 0 c).before_in_eq_fetched _ rfl (fun _ => rfl) (fun _ _ _ => rfl) (fun t => by
      dsimp only [dats]; unfold Dat.blockOf iblk; try rfl) t d).trans (by unfold Dat.fetched Dat.blockOf iblk; try rfl)

set_option maxHeartbeats 8000000 in
/-- The body at any point, in the case the point's column selects: the invariant hands it the scratch and takes it back at this
    point's contents. -/
theorem sound_body (c : Dev nD) (t : Fin cfg0.N) :
    iprop((dats m 0 c).Φ t.castSucc ∗ (dats m 0 c).owesAt () t.castSucc ∗ ins c (opsAt t) (blks m c t)
        iprop(∃ d, owns (c : Thread nD τ) (opsAt t).a17.1 fullShare ((dats m 0 c).before 15 t d)))
      ⊢ wp frame (wpE (defs₀ (F := F)) Variants.none c none) Set.univ (body (grid0.coords t) (opsAt t)) (fun _ =>
        iprop((dats m 0 c).Φ t.succ ∗ (dats m 0 c).owesAt () t.castSucc ∗ ins c (opsAt t) (blks m c t) ((dats m 0 c).leavesExact 15 t))) := by
  rw [show (dats m 0 c).Φ t.succ = owns (c : Thread nD τ) scM0_0 fullShare (scrAt m c t.val t.isLt) from rfl,
    show (dats m 0 c).Φ t.castSucc = PhiS m c t.val (Nat.le_of_lt t.isLt) from rfl]
  unfold ins
  by_cases h1 : t.val % 16 = 15
  · have h0 : ¬t.val % 16 = 0 := by omega
    rw [show (dats m 0 c).leavesExact 15 t = owns (c : Thread nD τ) (opsAt t).a17.1 fullShare (outAt m c t) from by
      unfold Dat.leavesExact; rw [liveAt0_15 t ((hcond0_1 t).mpr h1)]; rfl]
    unfold outAt
    rw [if_pos h1, PhiS_pos m c _ _ (by omega), scrAt_next m c t h0]
    iintro ⟨HS0, Ho, H0, H1, H2, H3, H4, H5, H6, H7, H8, H9, H10, H11, H12, H13, H14, ⟨%d15, H15⟩⟩
    iapply (runC c (grid0.coords t) (opsAt t) (fun h => h0 ((hcond0_0 t).mp h)) ((hcond0_1 t).mpr h1) (blks m c t) _).2.2 Set.univ _
    unfold ins
    iframe H0 H1 H2 H3 H4 H5 H6 H7 H8 H9 H10 H11 H12 H13 H14
    isplitl [H15]; · iexists _; iexact H15
    isplitl [HS0]; · iexact HS0
    iintro ⟨H0, H1, H2, H3, H4, H5, H6, H7, H8, H9, H10, H11, H12, H13, H14, ⟨%e15, H15⟩, ⟨%es0, HS0⟩⟩
    iframe Ho H0 H1 H2 H3 H4 H5 H6 H7 H8 H9 H10 H11 H12 H13 H14
    isplitl [HS0]
    · unfold owns; iexists _; isplitr
      swap; · iexact HS0
      ipureintro; exact runC_scr c _ _ _ _ _ _ _ es0
    unfold owns; iexists _; isplitr
    swap; · iexact H15
    ipureintro; exact runC_out c _ _ _ _ _ _ _ e15
  · have hc1 : ¬cond0_1 (grid0.coords t) := fun h => h1 ((hcond0_1 t).mp h)
    rw [Dat.leavesExact_idle (dats m 0 c) 15 t (idleAt0_15 t hc1) (noFlush0_15 t hc1)]
    by_cases h0 : t.val % 16 = 0
    · rw [scrAt_first m c t h0]
      iintro ⟨HS0, Ho, H0, H1, H2, H3, H4, H5, H6, H7, H8, H9, H10, H11, H12, H13, H14, ⟨%d15, H15⟩⟩
      iapply (runA c (grid0.coords t) (opsAt t) ((hcond0_0 t).mpr h0) hc1 (blks m c t) _).2.2 Set.univ _
      unfold ins
      iframe H0 H1 H2 H3 H4 H5 H6 H7 H8 H9 H10 H11 H12 H13 H14 H15
      isplitl [HS0]; · iapply PhiS_ex m c; iexact HS0
      iintro ⟨H0, H1, H2, H3, H4, H5, H6, H7, H8, H9, H10, H11, H12, H13, H14, H15, ⟨%es0, HS0⟩⟩
      iframe Ho H0 H1 H2 H3 H4 H5 H6 H7 H8 H9 H10 H11 H12 H13 H14
      isplitl [HS0]
      · unfold owns; iexists _; isplitr
        swap; · iexact HS0
        ipureintro; exact runA_scr c _ _ _ _ _ _ _ es0
      iexists _; iexact H15
    · rw [PhiS_pos m c _ _ (by omega), scrAt_next m c t h0]
      iintro ⟨HS0, Ho, H0, H1, H2, H3, H4, H5, H6, H7, H8, H9, H10, H11, H12, H13, H14, ⟨%d15, H15⟩⟩
      iapply (runB c (grid0.coords t) (opsAt t) (fun h => h0 ((hcond0_0 t).mp h)) hc1 (blks m c t) _ _).2.2 Set.univ _
      unfold ins
      iframe H0 H1 H2 H3 H4 H5 H6 H7 H8 H9 H10 H11 H12 H13 H14 H15
      isplitl [HS0]; · iexact HS0
      iintro ⟨H0, H1, H2, H3, H4, H5, H6, H7, H8, H9, H10, H11, H12, H13, H14, H15, ⟨%es0, HS0⟩⟩
      iframe Ho H0 H1 H2 H3 H4 H5 H6 H7 H8 H9 H10 H11 H12 H13 H14
      isplitl [HS0]
      · unfold owns; iexists _; isplitr
        swap; · iexact HS0
        ipureintro; exact runB_scr c _ _ _ _ _ _ _ _ es0
      iexists _; iexact H15

/-- The body's obligation at every point: the windows one by one are the input memrefs at their blocks and the result window. -/
theorem body_obligation (c : Dev nD) : BodyObligation (dats (F := F) m 0 c) (defs₀ (F := F)) Variants.none () Set.univ := fun t => by
  rw [bigSep_W0, bigSep_W0]
  obtain ⟨b0, b1, b2, b3, b4, b5, b6, b7, b8, b9, b10, b11, b12, b13, b14⟩ := before_eq m c t
  simp only [b0, b1, b2, b3, b4, b5, b6, b7, b8, b9, b10, b11, b12, b13, b14]
  refine .trans ?_ (sound_body m c t)
  unfold ins
  iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
  isplitl [HS0]; · iexact HS0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem hin (c : Dev nD) : (Pipeline.scopedRest (Ix := Unit) (Name := ℕ) (U := UR sig nD τ) (Lvl := ℕ) (Val := Elt F) spec0 c : sProp 𝕄) ⊢ (dats m 0 c).Φ 0 :=
  .rfl

/-- After the last point the scratch's contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [scopedRest0_owns]
  exact PhiS_ex m c (Fin.last cfg0.N).val (Nat.le_of_lt_succ (Fin.last cfg0.N).isLt)

set_option backward.isDefEq.respectTransparency.types false in
theorem run_main : θ_run defs (onTc (τ := τ) (main (F := F))) (s₀ m ρ) (Pipeline.FramePost cfgs (dats m) 0 (V m)) :=
  Cert.Lib.θ_run_frame_track_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := fun c => arrays_split_shared c (V m c) (dats m 0 c) (fun _ => rfl) (fun _ => rfl)) (hin := hin m) (hout := hout m)

/-- After the frame run every argument is as launched: eight are arrays of input windows and end at their entry contents, six are
    transposed by the host and never touched by the region. -/
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) :=
  ⟨((h c).1 0).trans (((dats m 0 c).arrAt_in 0 rfl _).trans (V_arg m c main_arg0)),
    ((h c).1 2).trans (((dats m 0 c).arrAt_in 2 rfl _).trans (V_arg m c main_arg1)),
    ((h c).2 main_arg2 (Pipeline.mem_restRefs_of main_arg2 (by decide) (by decide))).trans (V_arg m c main_arg2),
    ((h c).1 4).trans (((dats m 0 c).arrAt_in 4 rfl _).trans (V_arg m c main_arg3)),
    ((h c).2 main_arg4 (Pipeline.mem_restRefs_of main_arg4 (by decide) (by decide))).trans (V_arg m c main_arg4),
    ((h c).1 6).trans (((dats m 0 c).arrAt_in 6 rfl _).trans (V_arg m c main_arg5)),
    ((h c).2 main_arg6 (Pipeline.mem_restRefs_of main_arg6 (by decide) (by decide))).trans (V_arg m c main_arg6),
    ((h c).1 8).trans (((dats m 0 c).arrAt_in 8 rfl _).trans (V_arg m c main_arg7)),
    ((h c).2 main_arg8 (Pipeline.mem_restRefs_of main_arg8 (by decide) (by decide))).trans (V_arg m c main_arg8),
    ((h c).1 10).trans (((dats m 0 c).arrAt_in 10 rfl _).trans (V_arg m c main_arg9)),
    ((h c).2 main_arg10 (Pipeline.mem_restRefs_of main_arg10 (by decide) (by decide))).trans (V_arg m c main_arg10),
    ((h c).1 12).trans (((dats m 0 c).arrAt_in 12 rfl _).trans (V_arg m c main_arg11)),
    ((h c).2 main_arg12 (Pipeline.mem_restRefs_of main_arg12 (by decide) (by decide))).trans (V_arg m c main_arg12),
    ((h c).1 14).trans (((dats m 0 c).arrAt_in 14 rfl _).trans (V_arg m c main_arg13))⟩

end Cert.KernelIdeal.Fr

end
-- ==== Proof.KBlocks.lean ====
import proofs.«132723_j7645041786903_1_alg».proof.Proof.KI.Runs
import Idealize.ShloMosaic.Lib.ValueIdx
import Idealize.ShloMosaic.Lib.ValueLayout

noncomputable section

namespace Cert.KernelIdeal.Fr

open Idealize.ShloMosaic Idealize.ShloMosaic.TcCoe
open Idealize.ShloMosaic.Pipeline (Window)
open Cert.KernelIdeal Cert.KernelIdeal.Gen
open Idealize.ShloMosaic.ValueIdx

variable {F : FTy → Type} [FloatOps F]

variable (m : (ℓ : Loc nD τ sig) → Buf (Elt F) ℓ)

theorem coords0 (t : Fin cfg0.N) : ((grid0.coords t) 0).val = t.val / 16 := by revert t; decide +kernel
theorem coords1 (t : Fin cfg0.N) : ((grid0.coords t) 1).val = t.val % 16 := by revert t; decide +kernel

/-- An element of a block sits in the array, on each axis, at the block index times the block's size plus its own coordinate. -/
theorem rect_emb_eq {G : Pipeline.Grid} (w : Window sig G) (t : Fin G.N) (y : (w.xblock (G.coords t)).Idx) (y' : w.shape.Idx)
    (h : ∀ a, w.index t a * w.size a + y a = y' a) : (w.rect t).emb y = y' :=
  funext fun a => Fin.ext ((w.rect_emb_val t y a).trans (h a))

theorem offs0_rows : ∀ t : Fin cfg0.N,
    (win0_0.index t 0 * win0_0.size 0 = 128 * (t.val / 16) ∧ win0_0.index t 1 * win0_0.size 1 = 0) ∧
    (win0_1.index t 0 * win0_1.size 0 = 64 * (t.val % 16) ∧ win0_1.index t 1 * win0_1.size 1 = 0) ∧
    (win0_2.index t 0 * win0_2.size 0 = 128 * (t.val / 16) ∧ win0_2.index t 1 * win0_2.size 1 = 0) := by decide +kernel

theorem iblk0_apply (c : Dev nD) (t : Fin cfg0.N) (r : Fin 128) (cc : Fin 10) :
    (iblk m c 0 t : Vec F S128x10 .f32) (ix2 r cc) = (V m c main_arg0 : Vec F S1024x10 .f32) (ix2 (⟨128 * (t.val / 16) + r.val, by have := t.isLt; have := r.isLt; have : cfg0.N = 128 := N_0; omega⟩ : Fin 1024) cc) :=
  congrArg (V m c main_arg0) (rect_emb_eq win0_0 t (ix2 r cc) (ix2 ⟨_, _⟩ cc) fun
    | ⟨0, _⟩ => congrArg (· + r.val) (offs0_rows t).1.1
    | ⟨1, _⟩ => (congrArg (· + cc.val) (offs0_rows t).1.2).trans (Nat.zero_add _))

theorem iblk1_apply (c : Dev nD) (t : Fin cfg0.N) (jj : Fin 64) (cc : Fin 10) :
    (iblk m c 1 t : Vec F S64x10 .f32) (ix2 jj cc) = (V m c main_arg0 : Vec F S1024x10 .f32) (ix2 (⟨64 * (t.val % 16) + jj.val, by have := jj.isLt; omega⟩ : Fin 1024) cc) :=
  congrArg (V m c main_arg0) (rect_emb_eq win0_1 t (ix2 jj cc) (ix2 ⟨_, _⟩ cc) fun
    | ⟨0, _⟩ => congrArg (· + jj.val) (offs0_rows t).2.1.1
    | ⟨1, _⟩ => (congrArg (· + cc.val) (offs0_rows t).2.1.2).trans (Nat.zero_add _))

theorem iblk2_apply (c : Dev nD) (t : Fin cfg0.N) (r : Fin 128) (cc : Fin 10) :
    (iblk m c 2 t : Vec F S128x10 .f32) (ix2 r cc) = (V m c main_arg1 : Vec F S1024x10 .f32) (ix2 (⟨128 * (t.val / 16) + r.val, by have := t.isLt; have := r.isLt; have : cfg0.N = 128 := N_0; omega⟩ : Fin 1024) cc) :=
  congrArg (V m c main_arg1) (rect_emb_eq win0_2 t (ix2 r cc) (ix2 ⟨_, _⟩ cc) fun
    | ⟨0, _⟩ => congrArg (· + r.val) (offs0_rows t).2.2.1
    | ⟨1, _⟩ => (congrArg (· + cc.val) (offs0_rows t).2.2.2).trans (Nat.zero_add _))

theorem index0_whole : ∀ w : Fin cfg0.W, 3 ≤ w.val ∧ w.val < 15 → ∀ (t : Fin cfg0.N) a, (cfg0.win w).index t a = 0 := by decide +kernel

/-- With block index zero on every axis, an element of the block has the same coordinates in the array. -/
theorem whole_emb (w : Fin cfg0.W) (t : Fin cfg0.N) (y : ((cfg0.win w).xblock (cfg0.grid.coords t)).Idx) (y' : (cfg0.win w).shape.Idx)
    (hy : ∀ a, (y a : ℕ) = y' a := by exact fun _ => rfl) (hw : 3 ≤ w.val ∧ w.val < 15 := by decide) : ((cfg0.win w).rect t).emb y = y' :=
  funext fun a => Fin.ext (((cfg0.win w).rect_emb_val_of_index_zero t a (index0_whole w hw t a) y).trans (hy a))

theorem iblk3_eq (c : Dev nD) (t : Fin cfg0.N) : (iblk m c 3 t : Vec F S11x64 .f32) = V m c main_v0 :=
  funext fun y => congrArg (V m c main_v0) (whole_emb 3 t y y)
theorem iblk4_eq (c : Dev nD) (t : Fin cfg0.N) : (iblk m c 4 t : Vec F S64 .f32) = V m c main_arg3 :=
  funext fun y => congrArg (V m c main_arg3) (whole_emb 4 t y y)
theorem iblk5_eq (c : Dev nD) (t : Fin cfg0.N) : (iblk m c 5 t : Vec F S64x128 .f32) = V m c main_v1 :=
  funext fun y => congrArg (V m c main_v1) (whole_emb 5 t y y)
theorem iblk6_eq (c : Dev nD) (t : Fin cfg0.N) : (iblk m c 6 t : Vec F S128 .f32) = V m c main_arg5 :=
  funext fun y => congrArg (V m c main_arg5) (whole_emb 6 t y y)
theorem iblk7_eq (c : Dev nD) (t : Fin cfg0.N) : (iblk m c 7 t : Vec F S138x64 .f32) = V m c main_v2 :=
  funext fun y => congrArg (V m c main_v2) (whole_emb 7 t y y)
theorem iblk8_eq (c : Dev nD) (t : Fin cfg0.N) : (iblk m c 8 t : Vec F S64 .f32) = V m c main_arg7 :=
  funext fun y => congrArg (V m c main_arg7) (whole_emb 8 t y y)
theorem iblk9_eq (c : Dev nD) (t : Fin cfg0.N) : (iblk m c 9 t : Vec F S64x128 .f32) = V m c main_v3 :=
  funext fun y => congrArg (V m c main_v3) (whole_emb 9 t y y)
theorem iblk10_eq (c : Dev nD) (t : Fin cfg0.N) : (iblk m c 10 t : Vec F S128 .f32) = V m c main_arg9 :=
  funext fun y => congrArg (V m c main_arg9) (whole_emb 10 t y y)
theorem iblk11_eq (c : Dev nD) (t : Fin cfg0.N) : (iblk m c 11 t : Vec F S128x64 .f32) = V m c main_v4 :=
  funext fun y => congrArg (V m c main_v4) (whole_emb 11 t y y)
theorem iblk12_eq (c : Dev nD) (t : Fin cfg0.N) : (iblk m c 12 t : Vec F S64 .f32) = V m c main_arg11 :=
  funext fun y => congrArg (V m c main_arg11) (whole_emb 12 t y y)
theorem iblk13_eq (c : Dev nD) (t : Fin cfg0.N) : (iblk m c 13 t : Vec F S64x10 .f32) = V m c main_v5 :=
  funext fun y => congrArg (V m c main_v5) (whole_emb 13 t y y)
theorem iblk14_eq (c : Dev nD) (t : Fin cfg0.N) : (iblk m c 14 t : Vec F S10 .f32) = V m c main_arg13 :=
  funext fun y => congrArg (V m c main_arg13) (whole_emb 14 t y y)

theorem V_v0_apply (c : Dev nD) (cc : Fin 11) (k : Fin 64) : (V m c main_v0 : Vec F S11x64 .f32) (ix2 cc k) = (m ((c : Thread nD τ).loc main_arg2) : Vec F S64x11 .f32) (ix2 k cc) := by
  dsimp only [V, hostOps0]; after_results; exact transpose_ix2_apply _ _ _ _
theorem V_v1_apply (c : Dev nD) (k : Fin 64) (o : Fin 128) : (V m c main_v1 : Vec F S64x128 .f32) (ix2 k o) = (m ((c : Thread nD τ).loc main_arg4) : Vec F S128x64 .f32) (ix2 o k) := by
  dsimp only [V, hostOps0]; after_results; exact transpose_ix2_apply _ _ _ _
theorem V_v2_apply (c : Dev nD) (cc : Fin 138) (k : Fin 64) : (V m c main_v2 : Vec F S138x64 .f32) (ix2 cc k) = (m ((c : Thread nD τ).loc main_arg6) : Vec F S64x138 .f32) (ix2 k cc) := by
  dsimp only [V, hostOps0]; after_results; exact transpose_ix2_apply _ _ _ _
theorem V_v3_apply (c : Dev nD) (k : Fin 64) (o : Fin 128) : (V m c main_v3 : Vec F S64x128 .f32) (ix2 k o) = (m ((c : Thread nD τ).loc main_arg8) : Vec F S128x64 .f32) (ix2 o k) := by
  dsimp only [V, hostOps0]; after_results; exact transpose_ix2_apply _ _ _ _
theorem V_v4_apply (c : Dev nD) (k : Fin 128) (o : Fin 64) : (V m c main_v4 : Vec F S128x64 .f32) (ix2 k o) = (m ((c : Thread nD τ).loc main_arg10) : Vec F S64x128 .f32) (ix2 o k) := by
  dsimp only [V, hostOps0]; after_results; exact transpose_ix2_apply _ _ _ _
theorem V_v5_apply (c : Dev nD) (k : Fin 64) (o : Fin 10) : (V m c main_v5 : Vec F S64x10 .f32) (ix2 k o) = (m ((c : Thread nD τ).loc main_arg12) : Vec F S10x64 .f32) (ix2 o k) := by
  dsimp only [V, hostOps0]; after_results; exact transpose_ix2_apply _ _ _ _

end Cert.KernelIdeal.Fr

end
-- ==== Proof.Spec.lean ====
import Mathlib.Data.EReal.Basic
import Mathlib.Algebra.BigOperators.Fin
import Mathlib.Order.Fin.Basic
import Idealize.ShloMosaic.PureOps.Ideal

noncomputable section

namespace Cert.Spec

open Idealize.ShloMosaic

def tenth : EReal := Ideal.ofBits .f32 0x3DCCCCCD#32

def four : EReal := Ideal.ofBits .f32 0x40800000#32

/-- The eleven features of an ordered pair of states: the ten coordinate differences, then the diagonal indicator `e`. -/
def feat11 (a b : Fin 10 → EReal) (e : EReal) (c : Fin 11) : EReal :=
  if h : c.val < 10 then a ⟨c.val, h⟩ - b ⟨c.val, h⟩ else e

/-- The squared distance of two states over their first three coordinates. -/
def dist2 (a b : Fin 10 → EReal) : EReal :=
  ∑ c : Fin 3, (a (Fin.castLE (by decide) c) - b (Fin.castLE (by decide) c)) * (a (Fin.castLE (by decide) c) - b (Fin.castLE (by decide) c))

/-- One where the squared distance is below four, zero elsewhere. -/
def near (a b : Fin 10 → EReal) : EReal := if dist2 a b < four then 1 else 0

def lay1 (a b : Fin 10 → EReal) (e : EReal) (W1 : Fin 64 → Fin 11 → EReal) (b1 : Fin 64 → EReal) (k : Fin 64) : EReal :=
  max ((∑ c : Fin 11, feat11 a b e c * W1 k c) + b1 k) 0

def lay2 (a b : Fin 10 → EReal) (e : EReal) (W1 : Fin 64 → Fin 11 → EReal) (b1 : Fin 64 → EReal)
    (W2 : Fin 128 → Fin 64 → EReal) (b2 : Fin 128 → EReal) (o : Fin 128) : EReal :=
  max ((∑ k : Fin 64, lay1 a b e W1 b1 k * W2 o k) + b2 o) 0

/-- The second rectified layer of a pair at channel `o`, masked by nearness. -/
def pair (a b : Fin 10 → EReal) (e : EReal) (W1 : Fin 64 → Fin 11 → EReal) (b1 : Fin 64 → EReal)
    (W2 : Fin 128 → Fin 64 → EReal) (b2 : Fin 128 → EReal) (o : Fin 128) : EReal :=
  lay2 a b e W1 b1 W2 b2 o * near a b

def feat138 (p : Fin 128 → EReal) (a ar : Fin 10 → EReal) (c : Fin 138) : EReal :=
  if h : c.val < 128 then p ⟨c.val, h⟩ else a ⟨c.val - 128, by omega⟩ - ar ⟨c.val - 128, by omega⟩

/-- The head on a pooled row joined with the state's difference to its reference: three rectified layers, a linear one, and a tenth of
    that difference back. -/
def head (p : Fin 128 → EReal) (a ar : Fin 10 → EReal)
    (Wf1 : Fin 64 → Fin 138 → EReal) (bf1 : Fin 64 → EReal) (Wf2 : Fin 128 → Fin 64 → EReal) (bf2 : Fin 128 → EReal)
    (Wf3 : Fin 64 → Fin 128 → EReal) (bf3 : Fin 64 → EReal) (Wf4 : Fin 10 → Fin 64 → EReal) (bf4 : Fin 10 → EReal) (o : Fin 10) : EReal :=
  let y1 : Fin 64 → EReal := fun k => max ((∑ c : Fin 138, feat138 p a ar c * Wf1 k c) + bf1 k) 0
  let y2 : Fin 128 → EReal := fun k => max ((∑ c : Fin 64, y1 c * Wf2 k c) + bf2 k) 0
  let y3 : Fin 64 → EReal := fun k => max ((∑ c : Fin 128, y2 c * Wf3 k c) + bf3 k) 0
  ((∑ c : Fin 64, y3 c * Wf4 o c) + bf4 o) + Ideal.div (ar o - a o) tenth

/-- Agent `i`'s pooled row: the largest masked pair output over all partners. -/
def pooled (s : Fin 1024 → Fin 10 → EReal) (W1 : Fin 64 → Fin 11 → EReal) (b1 : Fin 64 → EReal)
    (W2 : Fin 128 → Fin 64 → EReal) (b2 : Fin 128 → EReal) (i : Fin 1024) (o : Fin 128) : EReal :=
  Finset.univ.sup fun j : Fin 1024 => pair (s i) (s j) (if i = j then 1 else 0) W1 b1 W2 b2 o

/-- The function both programs compute. -/
def G (s sr : Fin 1024 → Fin 10 → EReal) (W1 : Fin 64 → Fin 11 → EReal) (b1 : Fin 64 → EReal)
    (W2 : Fin 128 → Fin 64 → EReal) (b2 : Fin 128 → EReal)
    (Wf1 : Fin 64 → Fin 138 → EReal) (bf1 : Fin 64 → EReal) (Wf2 : Fin 128 → Fin 64 → EReal) (bf2 : Fin 128 → EReal)
    (Wf3 : Fin 64 → Fin 128 → EReal) (bf3 : Fin 64 → EReal) (Wf4 : Fin 10 → Fin 64 → EReal) (bf4 : Fin 10 → EReal)
    (i : Fin 1024) (o : Fin 10) : EReal :=
  head (pooled s W1 b1 W2 b2 i) (s i) (sr i) Wf1 bf1 Wf2 bf2 Wf3 bf3 Wf4 bf4 o

/-- A rectified value times zero or one is not negative. -/
theorem pair_nonneg (a b : Fin 10 → EReal) (e : EReal) (W1 : Fin 64 → Fin 11 → EReal) (b1 : Fin 64 → EReal)
    (W2 : Fin 128 → Fin 64 → EReal) (b2 : Fin 128 → EReal) (o : Fin 128) : 0 ≤ pair a b e W1 b1 W2 b2 o := by
  unfold pair near
  split
  · rw [mul_one]; exact le_max_right _ _
  · rw [mul_zero]

end Cert.Spec

end
-- ==== Proof.KTileIn.lean ====
import proofs.«132723_j7645041786903_1_alg».proof.Proof.Spec
import proofs.«132723_j7645041786903_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KTile

open Cert.KernelIdeal Cert.KernelIdeal.Gen Idealize.ShloMosaic Idealize.ShloMosaic.ValueIdx
open scoped BigOperators

theorem pay5_apply (x0 : Vec Ideal S128x10 .f32) (x1 : Vec Ideal S64x10 .f32) (r : Fin 128) (jj : Fin 64) (c : Fin 10) :
    k0_pay5 (F := Ideal) x0 x1 (ix3 r jj c) = (x0 (ix2 r c) : EReal) - x1 (ix2 jj c) := by
  unfold k0_pay5
  refine (subf_apply _ _ _).trans ?_
  congr 1
  · refine (broadcastTo_apply _ _ _ (ix3 r ⟨0, Nat.one_pos⟩ c) (fun a => match a with
      | ⟨0, _⟩ => rfl | ⟨1, _⟩ => rfl | ⟨2, _⟩ => rfl)).trans ?_
    exact shapeCast_apply _ _ _ (ix2 r c) (by
      rw [Shape.rowMajor_val_two, Shape.rowMajor_val_three]
      show r.val * 10 + c.val = (r.val * 1 + 0) * 10 + c.val
      omega)
  · refine (broadcastTo_apply _ _ _ (ix3 ⟨0, Nat.one_pos⟩ jj c) (fun a => match a with
      | ⟨0, _⟩ => rfl | ⟨1, _⟩ => rfl | ⟨2, _⟩ => rfl)).trans ?_
    exact shapeCast_apply _ _ _ (ix2 jj c) (by
      rw [Shape.rowMajor_val_two, Shape.rowMajor_val_three]
      show jj.val * 10 + c.val = (0 * 64 + jj.val) * 10 + c.val
      omega)

theorem word_of_bit (b : Bool) :
    (FloatOps.sitofp (F := Ideal) .f32 ((BitVec.ofBool b).setWidth 32) : EReal) = if b then 1 else 0 := by
  cases b
  · have h : ((BitVec.ofBool false).setWidth 32).toInt = 0 := by decide
    show ((((BitVec.ofBool false).setWidth 32).toInt : ℝ) : EReal) = _
    rw [h]; simp
  · have h : ((BitVec.ofBool true).setWidth 32).toInt = 1 := by decide
    show ((((BitVec.ofBool true).setWidth 32).toInt : ℝ) : EReal) = _
    rw [h]; simp

theorem mask_word (a b : EReal) :
    (FloatOps.sitofp (F := Ideal) .f32 ((FloatOps.cmpf (F := Ideal) (φ := .f32) .olt a b).setWidth 32) : EReal)
      = if a < b then 1 else 0 := by
  rw [Ideal.cmpf_def]
  show (FloatOps.sitofp (F := Ideal) .f32 ((BitVec.ofBool (decide (a < b))).setWidth 32) : EReal) = _
  rw [word_of_bit]
  by_cases h : a < b
  · simp [h]
  · simp [h]

theorem slice_apply (x0 : Vec Ideal S128x10 .f32) (x1 : Vec Ideal S64x10 .f32) (r : Fin 128) (jj : Fin 64) (k : Fin 3)
    (j : S128x64x3.Idx) (h0 : (j 0).val = r.val) (h1 : (j 1).val = jj.val) (h2 : (j 2).val = k.val) :
    extractStridedSlice S128x64x3 ![0, 0, 0] (k0_pay5 (F := Ideal) x0 x1) slices_S128x64x10_o0_0_0_S128x64x3 j
      = (x0 (ix2 r (Fin.castLE (by decide) k)) : EReal) - x1 (ix2 jj (Fin.castLE (by decide) k)) := by
  refine (extractStridedSlice_apply _ _ _ _ (ix3 r jj (Fin.castLE (by decide) k)) (fun a => match a with
    | ⟨0, _⟩ => by show r.val = 0 + (j 0).val; omega
    | ⟨1, _⟩ => by show jj.val = 0 + (j 1).val; omega
    | ⟨2, _⟩ => by show k.val = 0 + (j 2).val; omega)).trans ?_
  exact pay5_apply x0 x1 r jj _

/-- The mask of the pair (r, jj) of a tile: one where the squared distance is below four. -/
theorem pay6_apply (x0 : Vec Ideal S128x10 .f32) (x1 : Vec Ideal S64x10 .f32) (r : Fin 128) (jj : Fin 64) :
    k0_pay6 (F := Ideal) x0 x1 (ix2 r jj) = Cert.Spec.near (fun c => x0 (ix2 r c)) (fun c => x1 (ix2 jj c)) := by
  have key : ∀ (A D B : EReal), A = D → (if A < B then (1 : EReal) else 0) = if D < B then 1 else 0 := by
    intro A D B h; rw [h]
  unfold k0_pay6
  refine (mask_word _ _).trans ?_
  unfold Cert.Spec.near Cert.Spec.four
  refine key _ _ _ ?_
  refine (Ideal.multiReduction_add_single _ _ _ _ _ _).trans ?_
  unfold Cert.Spec.dist2
  refine Finset.sum_congr rfl (fun k _ => ?_)
  refine (mulf_apply _ _ _).trans ?_
  rw [slice_apply x0 x1 r jj k _ rfl rfl rfl]

theorem diag_bit (a b r jj : Nat) (ha : a < 8) (hb : b < 16) (hr : r < 128) (hj : jj < 64) :
    ((BitVec.ofNat 32 a * 128#32 + BitVec.ofNat 32 r) == (BitVec.ofNat 32 b * 64#32 + BitVec.ofNat 32 jj))
      = decide (128 * a + r = 64 * b + jj) := by
  have e1 : (BitVec.ofNat 32 a * 128#32 + BitVec.ofNat 32 r).toNat = 128 * a + r := by
    simp only [BitVec.toNat_add, BitVec.toNat_mul, BitVec.toNat_ofNat, Nat.reducePow, Nat.reduceMod]
    omega
  have e2 : (BitVec.ofNat 32 b * 64#32 + BitVec.ofNat 32 jj).toNat = 64 * b + jj := by
    simp only [BitVec.toNat_add, BitVec.toNat_mul, BitVec.toNat_ofNat, Nat.reducePow, Nat.reduceMod]
    omega
  rw [Bool.eq_iff_iff, beq_iff_eq, decide_eq_true_iff, ← BitVec.toNat_inj, e1, e2]

theorem diag_apply (i : grid0.Coords) (r : Fin 128) (jj : Fin 64) :
    (sitofp (F := Ideal) .f32
        (extui 32
          (cmpi .eq
            (addi (broadcast S128x64 (Scalar.muli (BitVec.ofNat 32 (i 0).val) 128#32)) (iota .tc S128x64 32 [0] iota_S128x64_d0_w32))
            (addi (broadcast S128x64 (Scalar.muli (BitVec.ofNat 32 (i 1).val) 64#32)) (iota .tc S128x64 32 [1] iota_S128x64_d1_w32)))
          natLt_1_32) (ix2 r jj) : EReal)
      = if 128 * (i 0).val + r.val = 64 * (i 1).val + jj.val then 1 else 0 := by
  have hi0 : (i 0).val < 8 := (i 0).isLt
  have hi1 : (i 1).val < 16 := (i 1).isLt
  have h0 : iota .tc S128x64 32 [0] iota_S128x64_d0_w32 (ix2 r jj) = BitVec.ofNat 32 r.val :=
    iota_single_apply _ _ _ _ _ _
  have h1 : iota .tc S128x64 32 [1] iota_S128x64_d1_w32 (ix2 r jj) = BitVec.ofNat 32 jj.val :=
    iota_single_apply _ _ _ _ _ _
  show (FloatOps.sitofp (F := Ideal) .f32
      ((BitVec.ofBool ((BitVec.ofNat 32 (i 0).val * 128#32 + iota .tc S128x64 32 [0] iota_S128x64_d0_w32 (ix2 r jj))
        == (BitVec.ofNat 32 (i 1).val * 64#32 + iota .tc S128x64 32 [1] iota_S128x64_d1_w32 (ix2 r jj)))).setWidth 32) : EReal) = _
  rw [h0, h1, diag_bit _ _ _ _ hi0 hi1 r.isLt jj.isLt, word_of_bit]
  by_cases h : 128 * (i 0).val + r.val = 64 * (i 1).val + jj.val
  · simp [h]
  · simp [h]

theorem cat_apply (x0 : Vec Ideal S128x10 .f32) (x1 : Vec Ideal S64x10 .f32) (d : FVec Ideal S128x64 .f32)
    (r : Fin 128) (jj : Fin 64) (c : Fin 11) :
    concatenate S128x64x11 2
        [⟨S128x64x10, k0_pay5 (F := Ideal) x0 x1⟩, ⟨S128x64x1, shapeCast S128x64x1 d shapeCasts_S128x64_S128x64x1⟩]
        concatenates_S128x64x10_S128x64x1_S128x64x11_d2 (ix3 r jj c)
      = Cert.Spec.feat11 (fun c => x0 (ix2 r c)) (fun c => x1 (ix2 jj c)) (d (ix2 r jj)) c := by
  unfold Cert.Spec.feat11
  by_cases h : c.val < 10
  · rw [dif_pos h]
    refine (concatenate_pair_apply_left (t := S128x64x11) (s₁ := S128x64x10) (s₂ := S128x64x1) 2 _ _ _ _ rfl
      (ix3 r jj ⟨c.val, h⟩) (fun b => match b with | ⟨0, _⟩ => rfl | ⟨1, _⟩ => rfl | ⟨2, _⟩ => rfl)).trans ?_
    exact pay5_apply x0 x1 r jj ⟨c.val, h⟩
  · rw [dif_neg h]
    have hc : c.val = 10 := by have := c.isLt; omega
    refine (concatenate_pair_apply_right (t := S128x64x11) (s₁ := S128x64x10) (s₂ := S128x64x1) 2 _ _ _ _ rfl rfl
      (ix3 r jj ⟨0, Nat.one_pos⟩)
      (fun b hb => by
        match b with
        | ⟨0, _⟩ => rfl
        | ⟨1, _⟩ => rfl
        | ⟨2, _⟩ => exact absurd rfl hb)
      (by show 0 + 10 = c.val; omega)).trans ?_
    exact shapeCast_apply _ _ _ (ix2 r jj) (by
      rw [Shape.rowMajor_val_two, Shape.rowMajor_val_three]
      show r.val * 64 + jj.val = (r.val * 64 + jj.val) * 1 + 0
      omega)

/-- The first rectified layer of the pair (r, jj) of a tile, its diagonal indicator comparing the two agents' positions in the arrays. -/
theorem pay7_apply (i : grid0.Coords) (x0 : Vec Ideal S128x10 .f32) (x1 : Vec Ideal S64x10 .f32)
    (w1t : Vec Ideal S11x64 .f32) (b1 : Vec Ideal S64 .f32)
    (r : Fin 128) (jj : Fin 64) (k : Fin 64) (ρ : Fin 8192) (hρ : ρ.val = 64 * r.val + jj.val) :
    k0_pay7 (F := Ideal) i x0 x1 w1t b1 (ix2 ρ k)
      = (∑ c : Fin 11, Cert.Spec.feat11 (fun c => x0 (ix2 r c)) (fun c => x1 (ix2 jj c))
            (if 128 * (i 0).val + r.val = 64 * (i 1).val + jj.val then 1 else 0) c * w1t (ix2 c k)) + b1 (ix1 k) := by
  unfold k0_pay7
  refine (addf_apply _ _ _).trans ?_
  congr 1
  ·
    refine (Ideal.matmul_constant_zero_apply _ none _ _ _).trans ?_
    refine (Equiv.sum_comp (contrEquiv1 dot_S8192x11_S11x64_S8192x64_1_0_0_1_n_n 11 rfl rfl).symm _).symm.trans ?_
    refine Finset.sum_congr rfl (fun c _ => ?_)
    congr 1
    ·
      refine (truncf_apply (φ := .f32) (ψ := .bf16) _ bitsLt_bf16_f32 _).trans ?_
      refine (shapeCast_apply _ _ _ (ix3 r jj c) (by
        rw [Shape.rowMajor_val_two, Shape.rowMajor_val_three]
        show (r.val * 64 + jj.val) * 11 + c.val = ρ.val * 11 + c.val
        omega)).trans ?_
      refine (cat_apply x0 x1 _ r jj c).trans ?_
      exact congrArg (fun e => Cert.Spec.feat11 (fun c => x0 (ix2 r c)) (fun c => x1 (ix2 jj c)) e c) (diag_apply i r jj)
    ·
      refine (truncf_apply (φ := .f32) (ψ := .bf16) _ bitsLt_bf16_f32 _).trans ?_
      exact shapeCast_apply _ _ _ (ix2 c k) (by
        rw [Shape.rowMajor_val_two, Shape.rowMajor_val_two]
        show c.val * 64 + k.val = c.val * 64 + k.val
        rfl)
  ·
    refine (broadcastTo_apply _ _ _ (ix2 ⟨0, Nat.one_pos⟩ k) (fun a => match a with
      | ⟨0, _⟩ => rfl | ⟨1, _⟩ => rfl)).trans ?_
    exact shapeCast_apply _ _ _ (ix1 k) (by
      rw [Shape.rowMajor_val_one, Shape.rowMajor_val_two]
      show k.val = 0 * 64 + k.val
      omega)

end Cert.KTile

end
-- ==== Proof.KTileAcc.lean ====
import proofs.«132723_j7645041786903_1_alg».proof.Proof.Spec
import proofs.«132723_j7645041786903_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Data.Finset.Lattice.Fold

noncomputable section

namespace Cert.KTile

open Cert.KernelIdeal Cert.KernelIdeal.Gen Idealize.ShloMosaic Idealize.ShloMosaic.ValueIdx
open scoped BigOperators

theorem lhs_0 (i : S8192x128.Idx) (q : dot_S8192x64_S64x128_S8192x128_1_0_0_1_n_n.contr.Idx) :
    (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem lhs_1 (i : S8192x128.Idx) (q : dot_S8192x64_S64x128_S8192x128_1_0_0_1_n_n.contr.Idx) :
    (dot_S8192x64_S64x128_S8192x128_1_0_0_1_n_n.lhsIdx i q 1).val = (q ⟨0, by decide⟩).val :=
  dot_S8192x64_S64x128_S8192x128_1_0_0_1_n_n.lhsIdx_val_of_single rfl i q
theorem rhs_0 (i : S8192x128.Idx) (q : dot_S8192x64_S64x128_S8192x128_1_0_0_1_n_n.contr.Idx) :
    (dot_S8192x64_S64x128_S8192x128_1_0_0_1_n_n.rhsIdx i q 0).val = (q ⟨0, by decide⟩).val :=
  dot_S8192x64_S64x128_S8192x128_1_0_0_1_n_n.rhsIdx_val_of_single rfl i q
theorem rhs_1 (i : S8192x128.Idx) (q : dot_S8192x64_S64x128_S8192x128_1_0_0_1_n_n.contr.Idx) :
    (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

theorem mm_apply (x : FVec Ideal S8192x64 .bf16) (w : FVec Ideal S64x128 .bf16) (ρ : Fin 8192) (o : Fin 128) :
    matmul dot_S8192x64_S64x128_S8192x128_1_0_0_1_n_n none x w (constant (F := Ideal) S8192x128 .f32 0x00000000#32) (ix2 ρ o)
      = ∑ k : Fin 64, x (ix2 ρ k) * w (ix2 k o) := by
  simp only [matmul]
  rw [Ideal.matmul_constant_zero_apply, ← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 ρ o) ((contrEquiv1 dot_S8192x64_S64x128_S8192x128_1_0_0_1_n_n 64 rfl rfl).symm k) = ix2 ρ k := funext fun a => Fin.ext (by
    match a with
    | ⟨0, _⟩ => exact lhs_0 _ _
    | ⟨1, _⟩ => exact (lhs_1 _ _).trans hk)
  have er : dot_S8192x64_S64x128_S8192x128_1_0_0_1_n_n.rhsIdx (ix2 ρ o) ((contrEquiv1 dot_S8192x64_S64x128_S8192x128_1_0_0_1_n_n 64 rfl rfl).symm k) = ix2 k o := funext fun a => Fin.ext (by
    match a with
    | ⟨0, _⟩ => exact (rhs_0 _ _).trans hk
    | ⟨1, _⟩ => exact rhs_1 _ _)
  rw [el, er]

theorem cast3_apply {α : Type} (y : S8192x128.Idx → α) (h : S8192x128.ShapeCasts S128x64x128) (r : Fin 128) (jj : Fin 64) (o : Fin 128) :
    shapeCast S128x64x128 y h (ix3 r jj o) = y (ix2 (⟨64 * r.val + jj.val, by omega⟩ : Fin 8192) o) :=
  shapeCast_apply y h _ _ (by
    rw [Shape.rowMajor_val_two, Shape.rowMajor_val_three]
    show (64 * r.val + jj.val) * 128 + o.val = (r.val * 64 + jj.val) * 128 + o.val
    omega)

theorem maskCast_apply {α : Type} (v : S128x64.Idx → α) (h : S128x64.ShapeCasts S128x64x1) (r : Fin 128) (jj : Fin 64) (u : Fin 1) :
    shapeCast S128x64x1 v h (ix3 r jj u) = v (ix2 r jj) :=
  shapeCast_apply v h _ _ (by
    have hu : u.val = 0 := by omega
    rw [Shape.rowMajor_val_two, Shape.rowMajor_val_three]
    show r.val * 64 + jj.val = (r.val * 64 + jj.val) * 1 + u.val
    omega)

theorem maskBcast_apply {α : Type} (v : S128x64x1.Idx → α) (h : S128x64x1.Broadcasts S128x64x128) (r : Fin 128) (jj : Fin 64) (o : Fin 128) :
    broadcastTo S128x64x128 v h (ix3 r jj o) = v (ix3 r jj (0 : Fin 1)) := by
  refine broadcastTo_apply v h (ix3 r jj o) (ix3 r jj (0 : Fin 1)) fun ax => ?_
  match ax with
  | ⟨0, _⟩ => rfl
  | ⟨1, _⟩ => rfl
  | ⟨2, _⟩ => rfl

theorem ofBits_negInf : Ideal.ofBits .f32 0xFF800000#32 = ⊥ := by simp [Ideal.ofBits, Ideal.ieee]

theorem laneMax_apply (src : FVec Ideal S128x64x128 .f32) (h : S128x64x128.Reduces [1] S128x128) (hφ : FKind.Formats .f32)
    (hacc : (0xFF800000#32 : BitVec 32) = FKind.maximumf.neutral .f32 hφ) (r o : Fin 128) :
    multiReduction (F := Ideal) .maximumf [1] S128x128 src 0xFF800000#32 h hφ hacc (ix2 r o)
      = Finset.univ.sup fun jj : Fin 64 => src (ix3 r jj o) := by
  refine (Ideal.multiReduction_maximumf_single src 0xFF800000#32 h hφ hacc (ix2 r o)).trans ?_
  show (Finset.univ : Finset (Fin 64)).fold max (Ideal.ofBits .f32 0xFF800000#32) (fun jj => src (h.lift (ix2 r o) jj)) = _
  rw [ofBits_negInf]
  have e : (fun jj : Fin 64 => src (h.lift (ix2 r o) jj)) = fun jj => src (ix3 r jj o) :=
    funext fun jj => congrArg src (funext fun c => Fin.ext (by
      match c with
      | ⟨0, _⟩ => rfl
      | ⟨1, _⟩ => rfl
      | ⟨2, _⟩ => rfl))
  exact (congrArg (fun f : Fin 64 → EReal => (Finset.univ : Finset (Fin 64)).fold max ⊥ f) e).trans rfl

/-- The updated running maximum at (r, o): the previous value against the largest masked second-layer output over the tile's partners. -/
theorem pay1_apply (v30 : FVec Ideal S128x64 .f32) (v40 : FVec Ideal S8192x64 .f32) (w2t : Vec Ideal S64x128 .f32) (b2 : Vec Ideal S128 .f32) (prev : Vec Ideal S128x128 .f32) (r o : Fin 128) :
    k0_pay1 (F := Ideal) v30 v40 (k0_pay8 (F := Ideal)) w2t b2 prev (ix2 r o)
      = max (prev (ix2 r o)) (Finset.univ.sup fun jj : Fin 64 =>
          max ((∑ k : Fin 64, max (v40 (ix2 (⟨64 * r.val + jj.val, by omega⟩ : Fin 8192) k)) 0 * w2t (ix2 k o)) + b2 (ix1 o)) 0 * v30 (ix2 r jj)) := by
  unfold k0_pay1
  refine (congrFun (shapeCast_self _ _) _).trans ?_
  refine congrArg (max (prev (ix2 r o))) ?_
  refine (laneMax_apply _ _ _ _ r o).trans ?_
  refine congrArg (Finset.sup Finset.univ) (funext fun jj => ?_)
  refine congrArg₂ (· * ·) ?_ ?_
  ·
    refine (cast3_apply _ _ r jj o).trans ?_
    refine congrArg₂ max ?_ Ideal.ofBits_zero_f32
    refine congrArg₂ (· + ·) ?_ ?_
    · refine (mm_apply _ _ _ o).trans ?_
      refine Finset.sum_congr rfl fun k _ => ?_
      refine congrArg₂ (· * ·) ?_ ?_
      · exact congrArg (max _) Ideal.ofBits_zero_f32
      · exact congrFun (shapeCast_self _ _) _
    · refine (broadcastTo_1b_ab_apply _ _ _ o).trans ?_
      exact shapeCast_a_1a_apply b2 _ 0 o
  ·
    refine (maskBcast_apply _ _ r jj o).trans ?_
    exact maskCast_apply v30 _ r jj 0

end Cert.KTile

end
-- ==== Proof.KTile.lean ====
import proofs.«132723_j7645041786903_1_alg».proof.Proof.Spec
import proofs.«132723_j7645041786903_1_alg».proof.Proof.Gen.KernelIdeal.Skeleton
import proofs.«132723_j7645041786903_1_alg».proof.Proof.KTileIn
import proofs.«132723_j7645041786903_1_alg».proof.Proof.KTileAcc
import Idealize.ShloMosaic.Lib.ValueIdx
import Mathlib.Data.Finset.Lattice.Fold

noncomputable section

namespace Cert.KTile

open Cert.KernelIdeal Cert.KernelIdeal.Gen Idealize.ShloMosaic Idealize.ShloMosaic.ValueIdx
open scoped BigOperators

/-- The update at (r, o) in the specification's words. -/
theorem accNew_apply (i : grid0.Coords) (x0 : Vec Ideal S128x10 .f32) (x1 : Vec Ideal S64x10 .f32) (w1t : Vec Ideal S11x64 .f32) (b1 : Vec Ideal S64 .f32) (w2t : Vec Ideal S64x128 .f32) (b2 : Vec Ideal S128 .f32) (prev : Vec Ideal S128x128 .f32) (r o : Fin 128) :
    k0_pay1 (F := Ideal) (k0_pay6 x0 x1) (k0_pay7 i x0 x1 w1t b1) (k0_pay8 (F := Ideal)) w2t b2 prev (ix2 r o)
      = max (prev (ix2 r o)) (Finset.univ.sup fun jj : Fin 64 =>
          Cert.Spec.pair (fun c => x0 (ix2 r c)) (fun c => x1 (ix2 jj c)) (if 128 * (i 0).val + r.val = 64 * (i 1).val + jj.val then 1 else 0)
            (fun k c => w1t (ix2 c k)) (fun k => b1 (ix1 k)) (fun o k => w2t (ix2 k o)) (fun o => b2 (ix1 o)) o) := by
  refine (pay1_apply (k0_pay6 x0 x1) (k0_pay7 i x0 x1 w1t b1) w2t b2 prev r o).trans ?_
  refine congrArg (max (prev (ix2 r o))) (congrArg (Finset.sup Finset.univ) (funext fun jj => ?_))
  unfold Cert.Spec.pair Cert.Spec.lay2 Cert.Spec.lay1
  refine congrArg₂ (· * ·) ?_ (pay6_apply x0 x1 r jj)
  refine congrArg (max · 0) ?_
  refine congrArg (· + b2 (ix1 o)) ?_
  refine Finset.sum_congr rfl fun k _ => ?_
  refine congrArg (· * w2t (ix2 k o)) ?_
  exact congrArg (max · 0) (pay7_apply i x0 x1 w1t b1 r jj k _ rfl)

end Cert.KTile

end
-- ==== Proof.KHead.lean ====
import proofs.«132723_j7645041786903_1_alg».proof.Proof.Spec
import proofs.«132723_j7645041786903_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KHead

open Cert.KernelIdeal Cert.KernelIdeal.Gen Idealize.ShloMosaic Idealize.ShloMosaic.ValueIdx

/-- A matrix product's contraction is a sum over the shared axis. -/
theorem plain_sum {m n p : Nat} (wf : DotDims.WF ⟨2, ![m, n]⟩ ⟨2, ![n, p]⟩ ⟨2, ![m, p]⟩ [1] [0] [0] [1] [] [])
    (L : (⟨2, ![m, n]⟩ : Shape).Idx → EReal) (R : (⟨2, ![n, p]⟩ : Shape).Idx → EReal) (r : Fin m) (o : Fin p) :
    (∑ k : (DotDims.mk (sl := ⟨2, ![m, n]⟩) (sr := ⟨2, ![n, p]⟩) (so := ⟨2, ![m, p]⟩) [1] [0] [0] [1] [] [] wf).contr.Idx,
        L ((DotDims.mk [1] [0] [0] [1] [] [] wf).lhsIdx (ix2 r o) k) * R ((DotDims.mk [1] [0] [0] [1] [] [] wf).rhsIdx (ix2 r o) k))
      = ∑ c : Fin n, L (ix2 r c) * R (ix2 c o) := by
  rw [← Equiv.sum_comp (contrEquiv1 (DotDims.mk (sl := ⟨2, ![m, n]⟩) (sr := ⟨2, ![n, p]⟩) (so := ⟨2, ![m, p]⟩) [1] [0] [0] [1] [] [] wf) n rfl rfl).symm]
  refine Finset.sum_congr rfl fun c _ => ?_
  congr 2
  · funext a
    apply Fin.ext
    match a with
    | ⟨0, _⟩ => simp [DotDims.lhsIdx]; rfl
    | ⟨1, _⟩ => simp [DotDims.lhsIdx, contrEquiv1]; rfl
  · funext a
    apply Fin.ext
    match a with
    | ⟨0, _⟩ => simp [DotDims.rhsIdx, contrEquiv1]; rfl
    | ⟨1, _⟩ => simp [DotDims.rhsIdx]; rfl

theorem bias_apply {m p : Nat} (b : (⟨1, ![p]⟩ : Shape).Idx → EReal) (hs : (⟨1, ![p]⟩ : Shape).ShapeCasts ⟨2, ![1, p]⟩)
    (hb : (⟨2, ![1, p]⟩ : Shape).Broadcasts ⟨2, ![m, p]⟩) (r : Fin m) (k : Fin p) :
    broadcastTo ⟨2, ![m, p]⟩ (shapeCast ⟨2, ![1, p]⟩ b hs) hb (ix2 r k) = b (ix1 k) := by
  refine (broadcastTo_apply _ hb (ix2 r k) (ix2 (0 : Fin 1) k) (fun a => ?_)).trans ?_
  · match a with
    | ⟨0, _⟩ => exact (if_pos rfl).symm
    | ⟨1, _⟩ =>
      show k.val = if p = 1 then 0 else k.val
      split
      · have := k.isLt; omega
      · rfl
  · refine shapeCast_apply b hs (ix2 (0 : Fin 1) k) (ix1 k) ?_
    rw [Shape.rowMajor_val_one, Shape.rowMajor_val_two]
    show k.val = 0 * p + k.val
    omega

theorem dense_apply {m n p : Nat} (D : DotDims ⟨2, ![m, n]⟩ ⟨2, ![n, p]⟩ ⟨2, ![m, p]⟩)
    (wf : DotDims.WF ⟨2, ![m, n]⟩ ⟨2, ![n, p]⟩ ⟨2, ![m, p]⟩ [1] [0] [0] [1] [] []) (hD : D = DotDims.mk [1] [0] [0] [1] [] [] wf)
    (lhs : FVec Ideal ⟨2, ![m, n]⟩ .bf16) (w : Vec Ideal ⟨2, ![n, p]⟩ .f32) (b : Vec Ideal ⟨1, ![p]⟩ .f32)
    (hw : (⟨2, ![n, p]⟩ : Shape).ShapeCasts ⟨2, ![n, p]⟩) (hbits : FTy.bits .bf16 < FTy.bits .f32)
    (hs : (⟨1, ![p]⟩ : Shape).ShapeCasts ⟨2, ![1, p]⟩) (hb : (⟨2, ![1, p]⟩ : Shape).Broadcasts ⟨2, ![m, p]⟩) (r : Fin m) (k : Fin p) :
    addf (matmul D none lhs (truncf .bf16 (shapeCast ⟨2, ![n, p]⟩ w hw) hbits) (constant ⟨2, ![m, p]⟩ .f32 0x00000000#32))
        (broadcastTo ⟨2, ![m, p]⟩ (shapeCast ⟨2, ![1, p]⟩ b hs) hb) (ix2 r k)
      = (∑ c : Fin n, lhs (ix2 r c) * w (ix2 c k)) + b (ix1 k) := by
  subst hD
  rw [addf_apply, bias_apply, shapeCast_self]
  refine congrArg (· + b (ix1 k)) ?_
  refine (Ideal.matmul_constant_zero_apply _ none lhs _ (ix2 r k)).trans ?_
  exact plain_sum wf lhs w r k

theorem relu_dense_apply {m n p : Nat} (D : DotDims ⟨2, ![m, n]⟩ ⟨2, ![n, p]⟩ ⟨2, ![m, p]⟩)
    (wf : DotDims.WF ⟨2, ![m, n]⟩ ⟨2, ![n, p]⟩ ⟨2, ![m, p]⟩ [1] [0] [0] [1] [] []) (hD : D = DotDims.mk [1] [0] [0] [1] [] [] wf)
    (lhs : FVec Ideal ⟨2, ![m, n]⟩ .bf16) (w : Vec Ideal ⟨2, ![n, p]⟩ .f32) (b : Vec Ideal ⟨1, ![p]⟩ .f32)
    (hw : (⟨2, ![n, p]⟩ : Shape).ShapeCasts ⟨2, ![n, p]⟩) (hbits : FTy.bits .bf16 < FTy.bits .f32)
    (hs : (⟨1, ![p]⟩ : Shape).ShapeCasts ⟨2, ![1, p]⟩) (hb : (⟨2, ![1, p]⟩ : Shape).Broadcasts ⟨2, ![m, p]⟩) (r : Fin m) (k : Fin p) :
    (truncf .bf16 (maximumf
        (addf (matmul D none lhs (truncf .bf16 (shapeCast ⟨2, ![n, p]⟩ w hw) hbits) (constant ⟨2, ![m, p]⟩ .f32 0x00000000#32))
          (broadcastTo ⟨2, ![m, p]⟩ (shapeCast ⟨2, ![1, p]⟩ b hs) hb))
        (broadcast ⟨2, ![m, p]⟩ (Scalar.ofBits (F := Ideal) .f32 0x00000000#32))) hbits : FVec Ideal ⟨2, ![m, p]⟩ .bf16) (ix2 r k)
      = max ((∑ c : Fin n, lhs (ix2 r c) * w (ix2 c k)) + b (ix1 k)) 0 := by
  rw [truncf_apply, maximumf_apply, dense_apply D wf hD, broadcast_apply]
  exact congrArg (max _) Ideal.ofBits_zero_f32

def inp (x0 x2 : Vec Ideal S128x10 .f32) (acc : Vec Ideal S128x128 .f32) : FVec Ideal S128x138 .f32 :=
  concatenate S128x138 1 [⟨S128x128, acc⟩, ⟨S128x10, subf x0 x2⟩] Facts₀.concatenates_S128x128_S128x10_S128x138_d1

theorem inp_apply (x0 x2 : Vec Ideal S128x10 .f32) (acc : Vec Ideal S128x128 .f32) (r : Fin 128) (c : Fin 138) :
    inp x0 x2 acc (ix2 r c)
      = Cert.Spec.feat138 (fun k => acc (ix2 r k)) (fun d => x0 (ix2 r d)) (fun d => x2 (ix2 r d)) c := by
  unfold inp Cert.Spec.feat138
  split
  · next h =>
    refine concatenate_pair_apply_left (t := S128x138) (s₁ := S128x128) (s₂ := S128x10) (1 : Fin 2) _ _ _ (ix2 r c) rfl
      (ix2 r (⟨c.val, h⟩ : Fin 128)) (fun b => ?_)
    match b with
    | ⟨0, _⟩ => rfl
    | ⟨1, _⟩ => rfl
  · next h =>
    have hc := c.isLt
    refine (concatenate_pair_apply_right (t := S128x138) (s₁ := S128x128) (s₂ := S128x10) (1 : Fin 2) _ _ _ (ix2 r c) rfl rfl
      (ix2 r (⟨c.val - 128, by omega⟩ : Fin 10)) (fun b hb => ?_) ?_).trans ?_
    · match b with
      | ⟨0, _⟩ => rfl
      | ⟨1, _⟩ => exact absurd rfl hb
    · show c.val - 128 + 128 = c.val
      omega
    · rfl

def blk1 (x0 x2 : Vec Ideal S128x10 .f32) (acc : Vec Ideal S128x128 .f32) (wf1t : Vec Ideal S138x64 .f32) (bf1 : Vec Ideal S64 .f32) :
    FVec Ideal S128x64 .bf16 :=
  truncf .bf16 (maximumf
    (addf (matmul dot_S128x138_S138x64_S128x64_1_0_0_1_n_n none (truncf .bf16 (inp x0 x2 acc) Facts₀.bitsLt_bf16_f32)
        (truncf .bf16 (shapeCast S138x64 wf1t Facts₀.shapeCasts_S138x64_S138x64) Facts₀.bitsLt_bf16_f32) (constant S128x64 .f32 0x00000000#32))
      (broadcastTo S128x64 (shapeCast S1x64 bf1 Facts₀.shapeCasts_S64_S1x64) Facts₀.broadcasts_S1x64_S128x64))
    (broadcast S128x64 (Scalar.ofBits (F := Ideal) .f32 0x00000000#32))) Facts₀.bitsLt_bf16_f32

def blk2 (y1 : FVec Ideal S128x64 .bf16) (wf2t : Vec Ideal S64x128 .f32) (bf2 : Vec Ideal S128 .f32) : FVec Ideal S128x128 .bf16 :=
  truncf .bf16 (maximumf
    (addf (matmul dot_S128x64_S64x128_S128x128_1_0_0_1_n_n none y1
        (truncf .bf16 (shapeCast S64x128 wf2t Facts₀.shapeCasts_S64x128_S64x128) Facts₀.bitsLt_bf16_f32) (constant S128x128 .f32 0x00000000#32))
      (broadcastTo S128x128 (shapeCast S1x128 bf2 Facts₀.shapeCasts_S128_S1x128) Facts₀.broadcasts_S1x128_S128x128))
    (broadcast S128x128 (Scalar.ofBits (F := Ideal) .f32 0x00000000#32))) Facts₀.bitsLt_bf16_f32

def blk3 (y2 : FVec Ideal S128x128 .bf16) (wf3t : Vec Ideal S128x64 .f32) (bf3 : Vec Ideal S64 .f32) : FVec Ideal S128x64 .bf16 :=
  truncf .bf16 (maximumf
    (addf (matmul dot_S128x128_S128x64_S128x64_1_0_0_1_n_n none y2
        (truncf .bf16 (shapeCast S128x64 wf3t Facts₀.shapeCasts_S128x64_S128x64) Facts₀.bitsLt_bf16_f32) (constant S128x64 .f32 0x00000000#32))
      (broadcastTo S128x64 (shapeCast S1x64 bf3 Facts₀.shapeCasts_S64_S1x64) Facts₀.broadcasts_S1x64_S128x64))
    (broadcast S128x64 (Scalar.ofBits (F := Ideal) .f32 0x00000000#32))) Facts₀.bitsLt_bf16_f32

theorem pay3_eq (x0 x2 : Vec Ideal S128x10 .f32) (acc : Vec Ideal S128x128 .f32) (wf1t : Vec Ideal S138x64 .f32) (bf1 : Vec Ideal S64 .f32)
    (wf2t : Vec Ideal S64x128 .f32) (bf2 : Vec Ideal S128 .f32) (wf3t : Vec Ideal S128x64 .f32) (bf3 : Vec Ideal S64 .f32) :
    k0_pay3 (F := Ideal) x0 acc x2 wf1t bf1 wf2t bf2 wf3t bf3 = blk3 (blk2 (blk1 x0 x2 acc wf1t bf1) wf2t bf2) wf3t bf3 := rfl

theorem blk1_apply (x0 x2 : Vec Ideal S128x10 .f32) (acc : Vec Ideal S128x128 .f32) (wf1t : Vec Ideal S138x64 .f32) (bf1 : Vec Ideal S64 .f32)
    (r : Fin 128) (k : Fin 64) :
    blk1 x0 x2 acc wf1t bf1 (ix2 r k)
      = max ((∑ c : Fin 138, Cert.Spec.feat138 (fun k => acc (ix2 r k)) (fun d => x0 (ix2 r d)) (fun d => x2 (ix2 r d)) c * wf1t (ix2 c k))
          + bf1 (ix1 k)) 0 := by
  unfold blk1
  refine (relu_dense_apply dot_S128x138_S138x64_S128x64_1_0_0_1_n_n _ rfl _ wf1t bf1 _ _ _ _ r k).trans ?_
  refine congrArg (fun t => max (t + bf1 (ix1 k)) 0) (Finset.sum_congr rfl fun c _ => congrArg (· * wf1t (ix2 c k)) ?_)
  exact inp_apply x0 x2 acc r c

theorem blk2_apply (y1 : FVec Ideal S128x64 .bf16) (wf2t : Vec Ideal S64x128 .f32) (bf2 : Vec Ideal S128 .f32) (r : Fin 128) (k : Fin 128) :
    blk2 y1 wf2t bf2 (ix2 r k) = max ((∑ c : Fin 64, y1 (ix2 r c) * wf2t (ix2 c k)) + bf2 (ix1 k)) 0 := by
  unfold blk2
  exact relu_dense_apply dot_S128x64_S64x128_S128x128_1_0_0_1_n_n _ rfl y1 wf2t bf2 _ _ _ _ r k

theorem blk3_apply (y2 : FVec Ideal S128x128 .bf16) (wf3t : Vec Ideal S128x64 .f32) (bf3 : Vec Ideal S64 .f32) (r : Fin 128) (k : Fin 64) :
    blk3 y2 wf3t bf3 (ix2 r k) = max ((∑ c : Fin 128, y2 (ix2 r c) * wf3t (ix2 c k)) + bf3 (ix1 k)) 0 := by
  unfold blk3
  exact relu_dense_apply dot_S128x128_S128x64_S128x64_1_0_0_1_n_n _ rfl y2 wf3t bf3 _ _ _ _ r k

theorem pay2_apply (x0 x2 : Vec Ideal S128x10 .f32) (y3 : FVec Ideal S128x64 .bf16) (wf4t : Vec Ideal S64x10 .f32) (bf4 : Vec Ideal S10 .f32)
    (r : Fin 128) (o : Fin 10) :
    k0_pay2 (F := Ideal) x0 x2 y3 wf4t bf4 (ix2 r o)
      = ((∑ c : Fin 64, y3 (ix2 r c) * wf4t (ix2 c o)) + bf4 (ix1 o)) + Ideal.div (x2 (ix2 r o) - x0 (ix2 r o)) Cert.Spec.tenth := by
  unfold k0_pay2
  refine (addf_apply _ _ (ix2 r o)).trans ?_
  refine congrArg₂ (· + ·) ?_ ?_
  · exact dense_apply dot_S128x64_S64x10_S128x10_1_0_0_1_n_n _ rfl y3 wf4t bf4 _ _ _ _ r o
  · rfl

/-- The result block at (r, o) is the specification's head on row r of the pooled block and the two state blocks. -/
theorem outNew_apply (x0 x2 : Vec Ideal S128x10 .f32) (acc : Vec Ideal S128x128 .f32) (wf1t : Vec Ideal S138x64 .f32) (bf1 : Vec Ideal S64 .f32)
    (wf2t : Vec Ideal S64x128 .f32) (bf2 : Vec Ideal S128 .f32) (wf3t : Vec Ideal S128x64 .f32) (bf3 : Vec Ideal S64 .f32)
    (wf4t : Vec Ideal S64x10 .f32) (bf4 : Vec Ideal S10 .f32) (r : Fin 128) (o : Fin 10) :
    k0_pay2 (F := Ideal) x0 x2 (k0_pay3 x0 acc x2 wf1t bf1 wf2t bf2 wf3t bf3) wf4t bf4 (ix2 r o)
      = Cert.Spec.head (fun k => acc (ix2 r k)) (fun c => x0 (ix2 r c)) (fun c => x2 (ix2 r c))
          (fun k c => wf1t (ix2 c k)) (fun k => bf1 (ix1 k)) (fun k c => wf2t (ix2 c k)) (fun k => bf2 (ix1 k))
          (fun k c => wf3t (ix2 c k)) (fun k => bf3 (ix1 k)) (fun k c => wf4t (ix2 c k)) (fun k => bf4 (ix1 k)) o := by
  rw [pay2_apply, pay3_eq]
  simp only [blk3_apply, blk2_apply, blk1_apply]
  rfl

end Cert.KHead

end
-- ==== Proof.MathLaws.lean ====
import Mathlib.Data.EReal.Basic
import Mathlib.Data.EReal.Operations
import Mathlib.Analysis.Real.Sqrt
import Mathlib.Algebra.BigOperators.Fin
import Mathlib.Algebra.Order.BigOperators.Group.Finset
import Mathlib.Order.Fin.Basic
import Idealize.ShloMosaic.PureOps.Ideal
import proofs.«132723_j7645041786903_1_alg».proof.Proof.Spec

noncomputable section

namespace Cert.Laws

open Idealize.ShloMosaic

theorem two_eq : Ideal.ofBits .f32 0x40000000#32 = (2 : EReal) := by
  simp [Ideal.ofBits, Ideal.ieee, -EReal.coe_mul]
  norm_num
  norm_cast

theorem four_eq : Cert.Spec.four = (4 : EReal) := by
  unfold Cert.Spec.four
  simp [Ideal.ofBits, Ideal.ieee, -EReal.coe_mul]
  norm_num
  norm_cast

theorem mul_self_nonneg' (x : EReal) : 0 ≤ x * x := by
  induction x using EReal.rec with
  | bot => simp
  | coe r =>
    rw [← EReal.coe_mul]
    exact_mod_cast mul_self_nonneg r
  | top => simp

theorem dist2_nonneg (a b : Fin 10 → EReal) : 0 ≤ Cert.Spec.dist2 a b := by
  unfold Cert.Spec.dist2
  exact Finset.sum_nonneg fun c _ => mul_self_nonneg' _

/-- On nonnegative extended reals the square root is below two exactly where the argument is below four. -/
theorem sqrt_lt_two_iff (d : EReal) (hd : 0 ≤ d) : Ideal.sqrt d < (2 : EReal) ↔ d < (4 : EReal) := by
  induction d using EReal.rec with
  | bot => exact absurd hd (by simp)
  | coe r =>
    have hr : 0 ≤ r := by exact_mod_cast hd
    rw [Ideal.sqrt_coe, if_neg (not_lt.mpr hr)]
    have h2 : ((2 : ℝ) : EReal) = 2 := by norm_cast
    have h4 : ((4 : ℝ) : EReal) = 4 := by norm_cast
    rw [← h2, ← h4, EReal.coe_lt_coe_iff, EReal.coe_lt_coe_iff, Real.sqrt_lt' (by norm_num : (0 : ℝ) < 2)]
    norm_num
  | top => simp

/-- Masking by the distance below two is masking by the squared distance below four. -/
theorem near_sqrt (a b : Fin 10 → EReal) :
    (if Ideal.sqrt (Cert.Spec.dist2 a b) < Ideal.ofBits .f32 0x40000000#32 then (1 : EReal) else 0)
      = Cert.Spec.near a b := by
  unfold Cert.Spec.near
  rw [two_eq, four_eq]
  by_cases h : Cert.Spec.dist2 a b < (4 : EReal)
  · rw [if_pos h, if_pos ((sqrt_lt_two_iff _ (dist2_nonneg a b)).mpr h)]
  · rw [if_neg h, if_neg (fun h' => h ((sqrt_lt_two_iff _ (dist2_nonneg a b)).mp h'))]

/-- The maximum, started from zero, over the first `J` tiles of 64 of a sequence. -/
def runMax (f : ℕ → EReal) : ℕ → EReal
  | 0 => 0
  | J + 1 => max (runMax f J) (Finset.univ.sup fun jj : Fin 64 => f (64 * J + jj.val))

theorem runMax_succ (f : ℕ → EReal) (J : ℕ) :
    runMax f (J + 1) = max (runMax f J) (Finset.univ.sup fun jj : Fin 64 => f (64 * J + jj.val)) := rfl

theorem runMax_one (f : ℕ → EReal) :
    runMax f 1 = max 0 (Finset.univ.sup fun jj : Fin 64 => f (64 * 0 + jj.val)) := rfl

theorem le_runMax (f : ℕ → EReal) : ∀ (J n : ℕ), n < 64 * J → f n ≤ runMax f J
  | 0, n, h => absurd h (by omega)
  | J + 1, n, h => by
    rw [runMax_succ]
    by_cases hn : n < 64 * J
    · exact le_trans (le_runMax f J n hn) (le_max_left _ _)
    · have hlt : n - 64 * J < 64 := by omega
      have hn' : n = 64 * J + (⟨n - 64 * J, hlt⟩ : Fin 64).val := by simp only []; omega
      refine le_trans ?_ (le_max_right _ _)
      have := Finset.le_sup (f := fun jj : Fin 64 => f (64 * J + jj.val)) (Finset.mem_univ (⟨n - 64 * J, hlt⟩ : Fin 64))
      rw [hn']
      exact this

theorem runMax_le (f : ℕ → EReal) (M : EReal) (h0 : 0 ≤ M) (hf : ∀ n, f n ≤ M) : ∀ J : ℕ, runMax f J ≤ M
  | 0 => h0
  | J + 1 => by
    rw [runMax_succ]
    exact max_le (runMax_le f M h0 hf J) (Finset.sup_le fun jj _ => hf _)

/-- A nonnegative family's maximum taken tile by tile from zero is its supremum. -/
theorem runMax_eq_sup (g : Fin 1024 → EReal) (hg : ∀ j, 0 ≤ g j) :
    runMax (fun n => if h : n < 1024 then g ⟨n, h⟩ else 0) 16 = Finset.univ.sup g := by
  have h0 : (0 : EReal) ≤ Finset.univ.sup g :=
    le_trans (hg ⟨0, by norm_num⟩) (Finset.le_sup (f := g) (Finset.mem_univ _))
  apply le_antisymm
  · apply runMax_le _ _ h0
    intro n
    by_cases h : n < 1024
    · rw [dif_pos h]; exact Finset.le_sup (f := g) (Finset.mem_univ _)
    · rw [dif_neg h]; exact h0
  · apply Finset.sup_le
    intro j _
    have := le_runMax (fun n => if h : n < 1024 then g ⟨n, h⟩ else 0) 16 j.val (by have := j.isLt; omega)
    simpa [j.isLt] using this

end Cert.Laws

end
-- ==== Proof.SpecArr.lean ====
import proofs.«132723_j7645041786903_1_alg».proof.Proof.Spec
import Idealize.ShloMosaic.Lib.ValueIdx

noncomputable section

namespace Cert.Spec

open Idealize.ShloMosaic Idealize.ShloMosaic.ValueIdx

def rows2 {a b : Nat} (x : (⟨2, ![a, b]⟩ : Shape).Idx → EReal) : Fin a → Fin b → EReal := fun i j => x (ix2 i j)

def rows1 {a : Nat} (x : (⟨1, ![a]⟩ : Shape).Idx → EReal) : Fin a → EReal := fun i => x (ix1 i)

/-- The specification read off whole arrays, row `i` of a matrix being `fun j => x (i, j)`. -/
def Gof (x0 x1 : (⟨2, ![1024, 10]⟩ : Shape).Idx → EReal) (x2 : (⟨2, ![64, 11]⟩ : Shape).Idx → EReal) (x3 : (⟨1, ![64]⟩ : Shape).Idx → EReal)
    (x4 : (⟨2, ![128, 64]⟩ : Shape).Idx → EReal) (x5 : (⟨1, ![128]⟩ : Shape).Idx → EReal)
    (x6 : (⟨2, ![64, 138]⟩ : Shape).Idx → EReal) (x7 : (⟨1, ![64]⟩ : Shape).Idx → EReal)
    (x8 : (⟨2, ![128, 64]⟩ : Shape).Idx → EReal) (x9 : (⟨1, ![128]⟩ : Shape).Idx → EReal)
    (x10 : (⟨2, ![64, 128]⟩ : Shape).Idx → EReal) (x11 : (⟨1, ![64]⟩ : Shape).Idx → EReal)
    (x12 : (⟨2, ![10, 64]⟩ : Shape).Idx → EReal) (x13 : (⟨1, ![10]⟩ : Shape).Idx → EReal) :
    (⟨2, ![1024, 10]⟩ : Shape).Idx → EReal :=
  fun idx => G (rows2 x0) (rows2 x1) (rows2 x2) (rows1 x3) (rows2 x4) (rows1 x5) (rows2 x6) (rows1 x7) (rows2 x8) (rows1 x9)
    (rows2 x10) (rows1 x11) (rows2 x12) (rows1 x13) ⟨(idx 0).val, (idx 0).isLt⟩ ⟨(idx 1).val, (idx 1).isLt⟩

theorem Gof_ix2 (x0 x1 : (⟨2, ![1024, 10]⟩ : Shape).Idx → EReal) (x2 : (⟨2, ![64, 11]⟩ : Shape).Idx → EReal) (x3 : (⟨1, ![64]⟩ : Shape).Idx → EReal)
    (x4 : (⟨2, ![128, 64]⟩ : Shape).Idx → EReal) (x5 : (⟨1, ![128]⟩ : Shape).Idx → EReal)
    (x6 : (⟨2, ![64, 138]⟩ : Shape).Idx → EReal) (x7 : (⟨1, ![64]⟩ : Shape).Idx → EReal)
    (x8 : (⟨2, ![128, 64]⟩ : Shape).Idx → EReal) (x9 : (⟨1, ![128]⟩ : Shape).Idx → EReal)
    (x10 : (⟨2, ![64, 128]⟩ : Shape).Idx → EReal) (x11 : (⟨1, ![64]⟩ : Shape).Idx → EReal)
    (x12 : (⟨2, ![10, 64]⟩ : Shape).Idx → EReal) (x13 : (⟨1, ![10]⟩ : Shape).Idx → EReal) (i : Fin 1024) (o : Fin 10) :
    Gof x0 x1 x2 x3 x4 x5 x6 x7 x8 x9 x10 x11 x12 x13 (ix2 i o)
      = G (rows2 x0) (rows2 x1) (rows2 x2) (rows1 x3) (rows2 x4) (rows1 x5) (rows2 x6) (rows1 x7) (rows2 x8) (rows1 x9)
          (rows2 x10) (rows1 x11) (rows2 x12) (rows1 x13) i o := rfl

end Cert.Spec

end
-- ==== Proof.KInduct.lean ====
import proofs.«132723_j7645041786903_1_alg».proof.Proof.KI.Frame
import proofs.«132723_j7645041786903_1_alg».proof.Proof.KBlocks
import proofs.«132723_j7645041786903_1_alg».proof.Proof.KTile
import proofs.«132723_j7645041786903_1_alg».proof.Proof.KHead
import proofs.«132723_j7645041786903_1_alg».proof.Proof.MathLaws
import proofs.«132723_j7645041786903_1_alg».proof.Proof.SpecArr

set_option maxRecDepth 16384

noncomputable section

namespace Cert.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr
open Idealize.ShloMosaic.ValueIdx

variable (m : (ℓ : Loc nD τ sig) → Buf (Elt Ideal) ℓ) (c : Dev nD)

abbrev A0 : Vec Ideal S1024x10 .f32 := m ((c : Thread nD τ).loc main_arg0)
abbrev A1 : Vec Ideal S1024x10 .f32 := m ((c : Thread nD τ).loc main_arg1)
abbrev A2 : Vec Ideal S64x11 .f32 := m ((c : Thread nD τ).loc main_arg2)
abbrev A3 : Vec Ideal S64 .f32 := m ((c : Thread nD τ).loc main_arg3)
abbrev A4 : Vec Ideal S128x64 .f32 := m ((c : Thread nD τ).loc main_arg4)
abbrev A5 : Vec Ideal S128 .f32 := m ((c : Thread nD τ).loc main_arg5)
abbrev A6 : Vec Ideal S64x138 .f32 := m ((c : Thread nD τ).loc main_arg6)
abbrev A7 : Vec Ideal S64 .f32 := m ((c : Thread nD τ).loc main_arg7)
abbrev A8 : Vec Ideal S128x64 .f32 := m ((c : Thread nD τ).loc main_arg8)
abbrev A9 : Vec Ideal S128 .f32 := m ((c : Thread nD τ).loc main_arg9)
abbrev A10 : Vec Ideal S64x128 .f32 := m ((c : Thread nD τ).loc main_arg10)
abbrev A11 : Vec Ideal S64 .f32 := m ((c : Thread nD τ).loc main_arg11)
abbrev A12 : Vec Ideal S10x64 .f32 := m ((c : Thread nD τ).loc main_arg12)
abbrev A13 : Vec Ideal S10 .f32 := m ((c : Thread nD τ).loc main_arg13)

abbrev B0 (t : Fin cfg0.N) : Vec Ideal S128x10 .f32 := iblk m c 0 t
abbrev B1 (t : Fin cfg0.N) : Vec Ideal S64x10 .f32 := iblk m c 1 t
abbrev B2 (t : Fin cfg0.N) : Vec Ideal S128x10 .f32 := iblk m c 2 t
abbrev B3 (t : Fin cfg0.N) : Vec Ideal S11x64 .f32 := iblk m c 3 t
abbrev B4 (t : Fin cfg0.N) : Vec Ideal S64 .f32 := iblk m c 4 t
abbrev B5 (t : Fin cfg0.N) : Vec Ideal S64x128 .f32 := iblk m c 5 t
abbrev B6 (t : Fin cfg0.N) : Vec Ideal S128 .f32 := iblk m c 6 t
abbrev B7 (t : Fin cfg0.N) : Vec Ideal S138x64 .f32 := iblk m c 7 t
abbrev B8 (t : Fin cfg0.N) : Vec Ideal S64 .f32 := iblk m c 8 t
abbrev B9 (t : Fin cfg0.N) : Vec Ideal S64x128 .f32 := iblk m c 9 t
abbrev B10 (t : Fin cfg0.N) : Vec Ideal S128 .f32 := iblk m c 10 t
abbrev B11 (t : Fin cfg0.N) : Vec Ideal S128x64 .f32 := iblk m c 11 t
abbrev B12 (t : Fin cfg0.N) : Vec Ideal S64 .f32 := iblk m c 12 t
abbrev B13 (t : Fin cfg0.N) : Vec Ideal S64x10 .f32 := iblk m c 13 t
abbrev B14 (t : Fin cfg0.N) : Vec Ideal S10 .f32 := iblk m c 14 t

abbrev Scr (n : ℕ) (hn : n < cfg0.N) : Vec Ideal S128x128 .f32 := scrAt (F := Ideal) m c n hn

abbrev updAt (t : Fin cfg0.N) (prev : Vec Ideal S128x128 .f32) : Vec Ideal S128x128 .f32 :=
  Fr.upd (grid0.coords t) (blks (F := Ideal) m c t) prev

/-- What partner `n` offers agent `i` at channel `o`: the masked pair output; zero past the last partner. -/
def offer (i : Fin 1024) (o : Fin 128) : ℕ → EReal := fun n =>
  if h : n < 1024 then
    Cert.Spec.pair (Cert.Spec.rows2 (A0 m c) i) (Cert.Spec.rows2 (A0 m c) ⟨n, h⟩) (if i.val = n then 1 else 0)
      (Cert.Spec.rows2 (A2 m c)) (Cert.Spec.rows1 (A3 m c)) (Cert.Spec.rows2 (A4 m c)) (Cert.Spec.rows1 (A5 m c)) o
  else 0

theorem pair_congr {a a' b b' : Fin 10 → EReal} {e e' : EReal} {W1 W1' : Fin 64 → Fin 11 → EReal} {b1 b1' : Fin 64 → EReal}
    {W2 W2' : Fin 128 → Fin 64 → EReal} {b2 b2' : Fin 128 → EReal} (o : Fin 128)
    (ha : a = a') (hb : b = b') (he : e = e') (hW1 : W1 = W1') (hb1 : b1 = b1') (hW2 : W2 = W2') (hb2 : b2 = b2') :
    Cert.Spec.pair a b e W1 b1 W2 b2 o = Cert.Spec.pair a' b' e' W1' b1' W2' b2' o := by
  subst ha hb he hW1 hb1 hW2 hb2; rfl

theorem head_congr {p p' : Fin 128 → EReal} {a a' ar ar' : Fin 10 → EReal}
    {Wf1 Wf1' : Fin 64 → Fin 138 → EReal} {bf1 bf1' : Fin 64 → EReal} {Wf2 Wf2' : Fin 128 → Fin 64 → EReal} {bf2 bf2' : Fin 128 → EReal}
    {Wf3 Wf3' : Fin 64 → Fin 128 → EReal} {bf3 bf3' : Fin 64 → EReal} {Wf4 Wf4' : Fin 10 → Fin 64 → EReal} {bf4 bf4' : Fin 10 → EReal}
    (o : Fin 10) (hp : p = p') (ha : a = a') (har : ar = ar') (h1 : Wf1 = Wf1') (g1 : bf1 = bf1') (h2 : Wf2 = Wf2') (g2 : bf2 = bf2')
    (h3 : Wf3 = Wf3') (g3 : bf3 = bf3') (h4 : Wf4 = Wf4') (g4 : bf4 = bf4') :
    Cert.Spec.head p a ar Wf1 bf1 Wf2 bf2 Wf3 bf3 Wf4 bf4 o = Cert.Spec.head p' a' ar' Wf1' bf1' Wf2' bf2' Wf3' bf3' Wf4' bf4' o := by
  subst hp ha har h1 g1 h2 g2 h3 g3 h4 g4; rfl

theorem rows_B0 (t : Fin cfg0.N) (r : Fin 128) (h : 128 * (t.val / 16) + r.val < 1024) :
    (fun cc : Fin 10 => B0 m c t (ix2 r cc)) = Cert.Spec.rows2 (A0 m c) ⟨128 * (t.val / 16) + r.val, h⟩ := by
  funext cc
  refine (iblk0_apply m c t r cc).trans ?_
  rw [V_arg m c main_arg0]
  rfl

theorem rows_B1 (t : Fin cfg0.N) (jj : Fin 64) (h : 64 * (t.val % 16) + jj.val < 1024) :
    (fun cc : Fin 10 => B1 m c t (ix2 jj cc)) = Cert.Spec.rows2 (A0 m c) ⟨64 * (t.val % 16) + jj.val, h⟩ := by
  funext cc
  refine (iblk1_apply m c t jj cc).trans ?_
  rw [V_arg m c main_arg0]
  rfl

theorem rows_B2 (t : Fin cfg0.N) (r : Fin 128) (h : 128 * (t.val / 16) + r.val < 1024) :
    (fun cc : Fin 10 => B2 m c t (ix2 r cc)) = Cert.Spec.rows2 (A1 m c) ⟨128 * (t.val / 16) + r.val, h⟩ := by
  funext cc
  refine (iblk2_apply m c t r cc).trans ?_
  rw [V_arg m c main_arg1]
  rfl

theorem rows_B3 (t : Fin cfg0.N) : (fun (k : Fin 64) (cc : Fin 11) => B3 m c t (ix2 cc k)) = Cert.Spec.rows2 (A2 m c) := by
  funext k cc
  show (iblk m c 3 t : Vec Ideal S11x64 .f32) (ix2 cc k) = _
  rw [iblk3_eq m c t]
  exact V_v0_apply m c cc k
theorem rows_B4 (t : Fin cfg0.N) : (fun k : Fin 64 => B4 m c t (ix1 k)) = Cert.Spec.rows1 (A3 m c) := by
  funext k
  show (iblk m c 4 t : Vec Ideal S64 .f32) (ix1 k) = _
  rw [iblk4_eq m c t, V_arg m c main_arg3]
  rfl
theorem rows_B5 (t : Fin cfg0.N) : (fun (o : Fin 128) (k : Fin 64) => B5 m c t (ix2 k o)) = Cert.Spec.rows2 (A4 m c) := by
  funext o k
  show (iblk m c 5 t : Vec Ideal S64x128 .f32) (ix2 k o) = _
  rw [iblk5_eq m c t]
  exact V_v1_apply m c k o
theorem rows_B6 (t : Fin cfg0.N) : (fun o : Fin 128 => B6 m c t (ix1 o)) = Cert.Spec.rows1 (A5 m c) := by
  funext o
  show (iblk m c 6 t : Vec Ideal S128 .f32) (ix1 o) = _
  rw [iblk6_eq m c t, V_arg m c main_arg5]
  rfl
theorem rows_B7 (t : Fin cfg0.N) : (fun (k : Fin 64) (cc : Fin 138) => B7 m c t (ix2 cc k)) = Cert.Spec.rows2 (A6 m c) := by
  funext k cc
  show (iblk m c 7 t : Vec Ideal S138x64 .f32) (ix2 cc k) = _
  rw [iblk7_eq m c t]
  exact V_v2_apply m c cc k
theorem rows_B8 (t : Fin cfg0.N) : (fun k : Fin 64 => B8 m c t (ix1 k)) = Cert.Spec.rows1 (A7 m c) := by
  funext k
  show (iblk m c 8 t : Vec Ideal S64 .f32) (ix1 k) = _
  rw [iblk8_eq m c t, V_arg m c main_arg7]
  rfl
theorem rows_B9 (t : Fin cfg0.N) : (fun (k : Fin 128) (cc : Fin 64) => B9 m c t (ix2 cc k)) = Cert.Spec.rows2 (A8 m c) := by
  funext k cc
  show (iblk m c 9 t : Vec Ideal S64x128 .f32) (ix2 cc k) = _
  rw [iblk9_eq m c t]
  exact V_v3_apply m c cc k
theorem rows_B10 (t : Fin cfg0.N) : (fun k : Fin 128 => B10 m c t (ix1 k)) = Cert.Spec.rows1 (A9 m c) := by
  funext k
  show (iblk m c 10 t : Vec Ideal S128 .f32) (ix1 k) = _
  rw [iblk10_eq m c t, V_arg m c main_arg9]
  rfl
theorem rows_B11 (t : Fin cfg0.N) : (fun (k : Fin 64) (cc : Fin 128) => B11 m c t (ix2 cc k)) = Cert.Spec.rows2 (A10 m c) := by
  funext k cc
  show (iblk m c 11 t : Vec Ideal S128x64 .f32) (ix2 cc k) = _
  rw [iblk11_eq m c t]
  exact V_v4_apply m c cc k
theorem rows_B12 (t : Fin cfg0.N) : (fun k : Fin 64 => B12 m c t (ix1 k)) = Cert.Spec.rows1 (A11 m c) := by
  funext k
  show (iblk m c 12 t : Vec Ideal S64 .f32) (ix1 k) = _
  rw [iblk12_eq m c t, V_arg m c main_arg11]
  rfl
theorem rows_B13 (t : Fin cfg0.N) : (fun (k : Fin 10) (cc : Fin 64) => B13 m c t (ix2 cc k)) = Cert.Spec.rows2 (A12 m c) := by
  funext k cc
  show (iblk m c 13 t : Vec Ideal S64x10 .f32) (ix2 cc k) = _
  rw [iblk13_eq m c t]
  exact V_v5_apply m c cc k
theorem rows_B14 (t : Fin cfg0.N) : (fun k : Fin 10 => B14 m c t (ix1 k)) = Cert.Spec.rows1 (A13 m c) := by
  funext k
  show (iblk m c 14 t : Vec Ideal S10 .f32) (ix1 k) = _
  rw [iblk14_eq m c t, V_arg m c main_arg13]
  rfl

/-- The pair (r, jj) of point `t`'s tile is agent 128·(t / 16) + r offered by partner 64·(t % 16) + jj. -/
theorem tile_term (t : Fin cfg0.N) (r : Fin 128) (jj : Fin 64) (o : Fin 128) (i : Fin 1024) (hi : i.val = 128 * (t.val / 16) + r.val) :
    Cert.Spec.pair (fun cc => B0 m c t (ix2 r cc)) (fun cc => B1 m c t (ix2 jj cc))
        (if 128 * ((grid0.coords t) 0).val + r.val = 64 * ((grid0.coords t) 1).val + jj.val then 1 else 0)
        (fun k cc => B3 m c t (ix2 cc k)) (fun k => B4 m c t (ix1 k)) (fun o k => B5 m c t (ix2 k o)) (fun o => B6 m c t (ix1 o)) o
      = offer m c i o (64 * (t.val % 16) + jj.val) := by
  have hlt : 64 * (t.val % 16) + jj.val < 1024 := by have := jj.isLt; omega
  have hi' : 128 * (t.val / 16) + r.val < 1024 := by have := i.isLt; omega
  obtain rfl : i = ⟨128 * (t.val / 16) + r.val, hi'⟩ := Fin.ext hi
  have c0 := coords0 t
  have c1 := coords1 t
  have ed : (if 128 * ((grid0.coords t) 0).val + r.val = 64 * ((grid0.coords t) 1).val + jj.val then (1 : EReal) else 0)
      = if 128 * (t.val / 16) + r.val = 64 * (t.val % 16) + jj.val then 1 else 0 := by
    rw [c0, c1]
  unfold offer
  rw [dif_pos hlt]
  exact pair_congr o (rows_B0 m c t r hi') (rows_B1 m c t jj hlt) ed (rows_B3 m c t) (rows_B4 m c t) (rows_B5 m c t) (rows_B6 m c t)

/-- The update of point `t` at (r, o): the previous content against the best offer of the point's 64 partners. -/
theorem upd_apply (t : Fin cfg0.N) (prev : Vec Ideal S128x128 .f32) (r o : Fin 128) (i : Fin 1024) (hi : i.val = 128 * (t.val / 16) + r.val) :
    updAt m c t prev (ix2 r o)
      = max (prev (ix2 r o)) (Finset.univ.sup fun jj : Fin 64 => offer m c i o (64 * (t.val % 16) + jj.val)) := by
  refine (Cert.KTile.accNew_apply (grid0.coords t) (B0 m c t) (B1 m c t) (B3 m c t) (B4 m c t) (B5 m c t) (B6 m c t) prev r o).trans ?_
  exact congrArg (max (prev (ix2 r o))) (congrArg (Finset.sup Finset.univ) (funext fun jj => tile_term m c t r jj o i hi))

theorem scr_first (t : Fin cfg0.N) (h0 : t.val % 16 = 0) : Scr m c t.val t.isLt = updAt m c t (k0_pay4 (F := Ideal)) :=
  scrAt_first m c t h0

theorem scr_next (t : Fin cfg0.N) (h0 : ¬t.val % 16 = 0) :
    Scr m c t.val t.isLt = updAt m c t (Scr m c (t.val - 1) (Nat.lt_of_le_of_lt (Nat.sub_le _ _) t.isLt)) :=
  scrAt_next m c t h0

theorem pay4_apply (r o : Fin 128) : (k0_pay4 (F := Ideal) : Vec Ideal S128x128 .f32) (ix2 r o) = 0 := by
  show Ideal.ofBits .f32 0x00000000#32 = (0 : EReal)
  exact Ideal.ofBits_zero_f32

theorem step_next (t : Fin cfg0.N) (h0 : ¬t.val % 16 = 0)
    (hs : Scr m c t.val t.isLt = updAt m c t (Scr m c (t.val - 1) (Nat.lt_of_le_of_lt (Nat.sub_le _ _) t.isLt)))
    (r o : Fin 128) (i : Fin 1024) (hi : i.val = 128 * (t.val / 16) + r.val)
    (ih : Scr m c (t.val - 1) (Nat.lt_of_le_of_lt (Nat.sub_le _ _) t.isLt) (ix2 r o) = Cert.Laws.runMax (offer m c i o) ((t.val - 1) % 16 + 1)) :
    Scr m c t.val t.isLt (ix2 r o) = Cert.Laws.runMax (offer m c i o) (t.val % 16 + 1) := by
  have e : (t.val - 1) % 16 + 1 = t.val % 16 := by omega
  rw [hs, upd_apply m c t _ r o i hi, ih, e]
  exact (Cert.Laws.runMax_succ _ _).symm

/-- After point `n`, entry (r, o) of the scratch is the running maximum over the first n % 16 + 1 tiles of the offers to agent
    128·(n / 16) + r. -/
theorem scratch_inv (n : ℕ) : ∀ (hn : n < cfg0.N) (r o : Fin 128) (i : Fin 1024), i.val = 128 * (n / 16) + r.val →
    Scr m c n hn (ix2 r o) = Cert.Laws.runMax (offer m c i o) (n % 16 + 1) := by
  induction n with
  | zero =>
    intro hn r o i hi
    have hs := scr_first m c ⟨0, hn⟩ rfl
    show Scr m c (⟨0, hn⟩ : Fin cfg0.N).val (⟨0, hn⟩ : Fin cfg0.N).isLt (ix2 r o) = _
    rw [hs, upd_apply m c ⟨0, hn⟩ _ r o i hi, pay4_apply]
    exact (Cert.Laws.runMax_one _).symm
  | succ n ih =>
    intro hn r o i hi
    by_cases h0 : (n + 1) % 16 = 0
    · have hs := scr_first m c ⟨n + 1, hn⟩ h0
      show Scr m c (⟨n + 1, hn⟩ : Fin cfg0.N).val (⟨n + 1, hn⟩ : Fin cfg0.N).isLt (ix2 r o) = _
      rw [hs, upd_apply m c ⟨n + 1, hn⟩ _ r o i hi, pay4_apply]
      show max 0 (Finset.univ.sup fun jj : Fin 64 => offer m c i o (64 * ((n + 1) % 16) + jj.val)) = Cert.Laws.runMax (offer m c i o) ((n + 1) % 16 + 1)
      rw [h0]
      exact (Cert.Laws.runMax_one _).symm
    · have ih' := ih (Nat.lt_of_succ_lt hn) r o i (by omega)
      exact step_next m c ⟨n + 1, hn⟩ h0 (scr_next m c ⟨n + 1, hn⟩ h0) r o i hi ih'

/-- Sixteen tiles cover the 1024 partners and no offer is negative, so the running maximum after the last column is the pooled row. -/
theorem pooled_eq (i : Fin 1024) (k : Fin 128) :
    Cert.Laws.runMax (offer m c i k) 16
      = Cert.Spec.pooled (Cert.Spec.rows2 (A0 m c)) (Cert.Spec.rows2 (A2 m c)) (Cert.Spec.rows1 (A3 m c)) (Cert.Spec.rows2 (A4 m c)) (Cert.Spec.rows1 (A5 m c)) i k := by
  have e : ∀ j : Fin 1024, (if i.val = j.val then (1 : EReal) else 0) = if i = j then 1 else 0 := by
    intro j
    by_cases h : i = j
    · rw [if_pos h, if_pos (congrArg Fin.val h)]
    · rw [if_neg h, if_neg (fun h' => h (Fin.ext h'))]
  refine (Cert.Laws.runMax_eq_sup (fun j : Fin 1024 =>
    Cert.Spec.pair (Cert.Spec.rows2 (A0 m c) i) (Cert.Spec.rows2 (A0 m c) j) (if i.val = j.val then 1 else 0)
      (Cert.Spec.rows2 (A2 m c)) (Cert.Spec.rows1 (A3 m c)) (Cert.Spec.rows2 (A4 m c)) (Cert.Spec.rows1 (A5 m c)) k)
    (fun j => Cert.Spec.pair_nonneg _ _ _ _ _ _ _ _)).trans ?_
  unfold Cert.Spec.pooled
  exact congrArg (Finset.sup Finset.univ) (funext fun j => pair_congr k rfl rfl (e j) rfl rfl rfl rfl)

/-- On the last column the result block is the specified result's row block. -/
theorem out_at (t : Fin cfg0.N) (h15 : t.val % 16 = 15) (r : Fin 128) (o : Fin 10) :
    (outAt (F := Ideal) m c t : Vec Ideal S128x10 .f32) (ix2 r o)
      = Cert.Spec.Gof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 (⟨128 * (t.val / 16) + r.val, by have := t.isLt; have := r.isLt; have : cfg0.N = 128 := N_0; omega⟩ : Fin 1024) o) := by
  have hi' : 128 * (t.val / 16) + r.val < 1024 := by have := t.isLt; have := r.isLt; have : cfg0.N = 128 := N_0; omega
  unfold outAt
  rw [if_pos h15]
  refine (Cert.KHead.outNew_apply (B0 m c t) (B2 m c t) (Scr m c t.val t.isLt)
    (B7 m c t) (B8 m c t) (B9 m c t) (B10 m c t) (B11 m c t) (B12 m c t) (B13 m c t) (B14 m c t) r o).trans ?_
  refine Eq.trans ?_ (Cert.Spec.Gof_ix2 (A0 m c) (A1 m c) (A2 m c) (A3 m c) (A4 m c) (A5 m c) (A6 m c) (A7 m c) (A8 m c) (A9 m c) (A10 m c) (A11 m c) (A12 m c) (A13 m c) ⟨128 * (t.val / 16) + r.val, hi'⟩ o).symm
  unfold Cert.Spec.G
  refine head_congr o (funext fun k => ?_) (rows_B0 m c t r hi') (rows_B2 m c t r hi') (rows_B7 m c t) (rows_B8 m c t) (rows_B9 m c t)
    (rows_B10 m c t) (rows_B11 m c t) (rows_B12 m c t) (rows_B13 m c t) (rows_B14 m c t)
  refine (scratch_inv m c t.val t.isLt r k ⟨128 * (t.val / 16) + r.val, hi'⟩ rfl).trans ?_
  rw [h15]
  exact pooled_eq m c ⟨128 * (t.val / 16) + r.val, hi'⟩ k

end Cert.KVal

end
-- ==== Proof.KFinal.lean ====
import proofs.«132723_j7645041786903_1_alg».proof.Proof.KInduct
import proofs.«132723_j7645041786903_1_alg».proof.Proof.KI.Frame
import proofs.«132723_j7645041786903_1_alg».proof.Proof.SpecArr
import Idealize.ShloMosaic.Lib.Pipeline.Value
import Idealize.ShloMosaic.Lib.ValueIdx

set_option maxRecDepth 16384

noncomputable section

namespace Cert.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr
open Idealize.ShloMosaic.ValueIdx

variable (m : (ℓ : Loc nD τ sig) → Buf (Elt Ideal) ℓ) (c : Dev nD)

abbrev Gres : Buf (Elt Ideal) ((c : Thread nD τ).loc main_v6) :=
  Cert.Spec.Gof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem index_res : ∀ t : Fin cfg0.N, win0_15.index t 0 = t.val / 16 ∧ win0_15.index t 1 = 0 :=
  (by decide +kernel : ∀ t : Fin grid0.N, win0_15.index t 0 = t.val / 16 ∧ win0_15.index t 1 = 0)

/-- What a point of the last column writes back is its row block of the specified result. -/
theorem flushed_res (t : Fin cfg0.N) (hf : (cfg0.win 15).flush t = true) :
    (dats (F := Ideal) m 0 c).flushed 15 t = ((cfg0.win 15).blk t).view.read (Elt Ideal) (Gres m c) := by
  have h15 : t.val % 16 = 15 := (flush0_15 t).mp hf
  have hi := index_res t
  show (cfg0.win 15).cut (grid0.coords t) (outAt (F := Ideal) m c t) = _
  have key : ∀ (r : Fin 128) (o : Fin 10),
      (outAt (F := Ideal) m c t : Vec Ideal S128x10 .f32) (ix2 r o)
        = (((cfg0.win 15).blk t).view.read (Elt Ideal) (Gres m c) : Vec Ideal S128x10 .f32) (ix2 r o) := by
    intro r o
    refine (out_at m c t h15 r o).trans ?_
    rw [View.read_apply]
    show Gres m c _ = Gres m c _
    congr 1
    funext a
    apply Fin.ext
    match a with
    | ⟨0, _⟩ => show 128 * (t.val / 16) + r.val = win0_15.index t 0 * 128 + 1 * r.val; rw [hi.1]; omega
    | ⟨1, _⟩ => show o.val = win0_15.index t 1 * 10 + 1 * o.val; rw [hi.2]; omega
  funext y
  rw [eq_ix2 y]
  exact key _ _

theorem mem_blk_res (t : Fin cfg0.N) (i : S1024x10.Idx) :
    i ∈ ((cfg0.win 15).blk t).view.set ↔ ∀ a : Fin 2, win0_15.index t a * S128x10.size a ≤ (i a).val ∧ (i a).val < win0_15.index t a * S128x10.size a + S128x10.size a := by
  show i ∈ ((View.whole main_v6).slice (win0_15.rect t)).set ↔ _
  rw [View.set_slice_whole, Rect.mem_set_unit]
  exact Iff.rfl

/-- Row ρ of the result is written back by the last-column point of its row block, t = 16 · (ρ / 128) + 15. -/
theorem cover_res (i : S1024x10.Idx) : ∃ t : Fin cfg0.N, (cfg0.win 15).flush t = true ∧ i ∈ ((cfg0.win 15).blk t).view.set := by
  have hN : cfg0.N = 128 := N_0
  have hi0 : (i 0).val < 1024 := (i 0).isLt
  have hi1 : (i 1).val < 10 := (i 1).isLt
  obtain ⟨t, ht⟩ : ∃ t : Fin cfg0.N, t.val = 16 * ((i 0).val / 128) + 15 := ⟨⟨16 * ((i 0).val / 128) + 15, by omega⟩, rfl⟩
  obtain ⟨e0, e1⟩ := index_res t
  refine ⟨t, (flush0_15 t).mpr (by omega), ?_⟩
  rw [mem_blk_res]
  intro a
  match a with
  | ⟨0, _⟩ => show win0_15.index t 0 * 128 ≤ (i 0).val ∧ (i 0).val < win0_15.index t 0 * 128 + 128; rw [e0]; omega
  | ⟨1, _⟩ => show win0_15.index t 1 * 10 ≤ (i 1).val ∧ (i 1).val < win0_15.index t 1 * 10 + 10; rw [e1]; omega

/-- The result array ends holding the specified result. -/
theorem final (m : (ℓ : Loc nD τ sig) → Buf (Elt Ideal) ℓ) (c : Dev nD) : (dats (F := Ideal) m 0 c).arrAt 15 cfg0.N = Gres m c :=
  (dats (F := Ideal) m 0 c).arrAt_eq_of_cover 15 (Gres m c) (fun t ht => flushed_res m c t ht) (cover_res)

end Cert.KVal

end
-- ==== Proof.RefRunCut.lean ====
import proofs.«132723_j7645041786903_1_alg».proof.Proof.RefRead
import Idealize.ShloMosaic.Lib.StableHlo.Run

noncomputable section

namespace Cert.RefRunCut

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The program's operations in order, in three stretches; each join reads two buffers the stretch before it leaves. -/
abbrev opsA : List (HloOp τ sig (Elt F)) :=
  [ unary main_arg0 main_v0 (broadcastInDim S1024x1x10 ![0, 2] bcast_S1024x10_S1024x1x10_0_2),
    unary main_arg0 main_v1 (broadcastInDim S1x1024x10 ![1, 2] bcast_S1024x10_S1x1024x10_1_2),
    unary main_v0 main_v2 (broadcastInDim S1024x1024x10 ![0, 1, 2] bcast_S1024x1x10_S1024x1024x10_0_1_2),
    unary main_v1 main_v3 (broadcastInDim S1024x1024x10 ![0, 1, 2] bcast_S1x1024x10_S1024x1024x10_0_1_2),
    binary main_v2 main_v3 main_v4 subf,
    nullary main_v5 (iotaInDim S1024x1024 32 0),
    nullary main_v6 (iotaInDim S1024x1024 32 1),
    nullary main_c (constantI S_ 32 0#32),
    unary main_c main_v7 (broadcastInDim S1024x1024 ![] bcast_S_S1024x1024),
    binary main_v5 main_v7 main_v8 addi,
    binary main_v8 main_v6 main_v9 (cmpi .eq),
    unary main_v9 main_v10 (uitofp .f32),
    unary main_v10 main_v11 (broadcastInDim S1024x1024x1 ![0, 1] bcast_S1024x1024_S1024x1024x1_0_1) ]

abbrev opsB : List (HloOp τ sig (Elt F)) :=
  [ binary main_v4 main_v11 main_v12 (fun a b => concatenate S1024x1024x11 2 [⟨S1024x1024x10, a⟩, ⟨S1024x1024x1, b⟩] concatenates_S1024x1024x10_S1024x1024x1_S1024x1024x11_d2),
    unary main_v12 main_v13 (extractStridedSlice S1024x1024x3 ![0, 0, 0] · slices_S1024x1024x11_S1024x1024x3_0_0_0),
    TRef.binary (TRef.of (T := ⟨S1024x1024x3, .f32⟩) main_v13) (TRef.of (T := ⟨S1024x1024x3, .f32⟩) main_v13) (TRef.of (T := ⟨S1024x1024x3, .f32⟩) main_call0_v0) mulf,
    TRef.nullary (TRef.of (T := ⟨S_, .f32⟩) main_call0_cst) (constant S_ .f32 0x00000000#32),
    TRef.binary (TRef.of (T := ⟨S1024x1024x3, .f32⟩) main_call0_v0) (TRef.of (T := ⟨S_, .f32⟩) main_call0_cst) (TRef.of (T := ⟨S1024x1024, .f32⟩) main_call0_v1) (fun x v => Host.reduceAdd x v reducesTo_S1024x1024x3_S1024x1024_d2 h_S_),
    TRef.unary (TRef.of (T := ⟨S1024x1024, .f32⟩) main_call0_v1) (TRef.of (T := ⟨S1024x1024x1, .f32⟩) main_call0_v2) (broadcastInDim S1024x1024x1 ![0, 1] bcast_S1024x1024_S1024x1024x1_0_1),
    TRef.unary (TRef.of (T := ⟨S1024x1024x1, .f32⟩) main_call0_v2) (TRef.of (T := ⟨S1024x1024x1, .f32⟩) main_v14) Host.sqrt,
    nullary main_cst (constant S_ .f32 0x40000000#32),
    unary main_cst main_v15 (broadcastInDim S1024x1024x1 ![] bcast_S_S1024x1024x1),
    binary main_v14 main_v15 main_v16 (cmpf .olt),
    unary main_v16 main_v17 (uitofp .f32),
    binary main_v12 main_arg2 main_v18 (fun l r => Host.dotGeneral dot_S1024x1024x11_S64x11_S1024x1024x64_2_1_01_0_n_n none l r),
    unary main_arg3 main_v19 (broadcastInDim S1x1x64 ![2] bcast_S64_S1x1x64_2),
    unary main_v19 main_v20 (broadcastInDim S1024x1024x64 ![0, 1, 2] bcast_S1x1x64_S1024x1024x64_0_1_2),
    binary main_v18 main_v20 main_v21 addf,
    TRef.nullary (TRef.of (T := ⟨S_, .f32⟩) main_call1_cst) (constant S_ .f32 0x00000000#32),
    TRef.unary (TRef.of (T := ⟨S_, .f32⟩) main_call1_cst) (TRef.of (T := ⟨S1024x1024x64, .f32⟩) main_call1_v0) (broadcastInDim S1024x1024x64 ![] bcast_S_S1024x1024x64),
    TRef.binary (TRef.of (T := ⟨S1024x1024x64, .f32⟩) main_v21) (TRef.of (T := ⟨S1024x1024x64, .f32⟩) main_call1_v0) (TRef.of (T := ⟨S1024x1024x64, .f32⟩) main_v22) maximumf,
    binary main_v22 main_arg4 main_v23 (fun l r => Host.dotGeneral dot_S1024x1024x64_S128x64_S1024x1024x128_2_1_01_0_n_n none l r),
    unary main_arg5 main_v24 (broadcastInDim S1x1x128 ![2] bcast_S128_S1x1x128_2),
    unary main_v24 main_v25 (broadcastInDim S1024x1024x128 ![0, 1, 2] bcast_S1x1x128_S1024x1024x128_0_1_2),
    binary main_v23 main_v25 main_v26 addf,
    TRef.nullary (TRef.of (T := ⟨S_, .f32⟩) main_call2_cst) (constant S_ .f32 0x00000000#32),
    TRef.unary (TRef.of (T := ⟨S_, .f32⟩) main_call2_cst) (TRef.of (T := ⟨S1024x1024x128, .f32⟩) main_call2_v0) (broadcastInDim S1024x1024x128 ![] bcast_S_S1024x1024x128),
    TRef.binary (TRef.of (T := ⟨S1024x1024x128, .f32⟩) main_v26) (TRef.of (T := ⟨S1024x1024x128, .f32⟩) main_call2_v0) (TRef.of (T := ⟨S1024x1024x128, .f32⟩) main_v27) maximumf,
    unary main_v17 main_v28 (broadcastInDim S1024x1024x128 ![0, 1, 2] bcast_S1024x1024x1_S1024x1024x128_0_1_2),
    binary main_v27 main_v28 main_v29 mulf,
    nullary main_cst_0 (constant S_ .f32 0xFF800000#32),
    binary main_v29 main_cst_0 main_v30 (fun x v => Host.reduce FloatOps.maximumf x v reducesTo_S1024x1024x128_S1024x128_d1 h_S_),
    binary main_arg0 main_arg1 main_v31 subf ]

abbrev opsC : List (HloOp τ sig (Elt F)) :=
  [ binary main_v30 main_v31 main_v32 (fun a b => concatenate S1024x138 1 [⟨S1024x128, a⟩, ⟨S1024x10, b⟩] concatenates_S1024x128_S1024x10_S1024x138_d1),
    unary main_arg6 main_v33 (transpose S138x64 [1, 0] · transposes_S64x138_S138x64_1_0),
    binary main_v32 main_v33 main_v34 (fun l r => Host.dotGeneral dot_S1024x138_S138x64_S1024x64_1_0_0_1_n_n none l r),
    unary main_arg7 main_v35 (broadcastInDim S1x64 ![1] bcast_S64_S1x64_1),
    unary main_v35 main_v36 (broadcastInDim S1024x64 ![0, 1] bcast_S1x64_S1024x64_0_1),
    binary main_v34 main_v36 main_v37 addf,
    TRef.nullary (TRef.of (T := ⟨S_, .f32⟩) main_call3_cst) (constant S_ .f32 0x00000000#32),
    TRef.unary (TRef.of (T := ⟨S_, .f32⟩) main_call3_cst) (TRef.of (T := ⟨S1024x64, .f32⟩) main_call3_v0) (broadcastInDim S1024x64 ![] bcast_S_S1024x64),
    TRef.binary (TRef.of (T := ⟨S1024x64, .f32⟩) main_v37) (TRef.of (T := ⟨S1024x64, .f32⟩) main_call3_v0) (TRef.of (T := ⟨S1024x64, .f32⟩) main_v38) maximumf,
    unary main_arg8 main_v39 (transpose S64x128 [1, 0] · transposes_S128x64_S64x128_1_0),
    binary main_v38 main_v39 main_v40 (fun l r => Host.dotGeneral dot_S1024x64_S64x128_S1024x128_1_0_0_1_n_n none l r),
    unary main_arg9 main_v41 (broadcastInDim S1x128 ![1] bcast_S128_S1x128_1),
    unary main_v41 main_v42 (broadcastInDim S1024x128 ![0, 1] bcast_S1x128_S1024x128_0_1),
    binary main_v40 main_v42 main_v43 addf,
    TRef.nullary (TRef.of (T := ⟨S_, .f32⟩) main_call4_cst) (constant S_ .f32 0x00000000#32),
    TRef.unary (TRef.of (T := ⟨S_, .f32⟩) main_call4_cst) (TRef.of (T := ⟨S1024x128, .f32⟩) main_call4_v0) (broadcastInDim S1024x128 ![] bcast_S_S1024x128),
    TRef.binary (TRef.of (T := ⟨S1024x128, .f32⟩) main_v43) (TRef.of (T := ⟨S1024x128, .f32⟩) main_call4_v0) (TRef.of (T := ⟨S1024x128, .f32⟩) main_v44) maximumf,
    unary main_arg10 main_v45 (transpose S128x64 [1, 0] · transposes_S64x128_S128x64_1_0),
    binary main_v44 main_v45 main_v46 (fun l r => Host.dotGeneral dot_S1024x128_S128x64_S1024x64_1_0_0_1_n_n none l r),
    unary main_arg11 main_v47 (broadcastInDim S1x64 ![1] bcast_S64_S1x64_1),
    unary main_v47 main_v48 (broadcastInDim S1024x64 ![0, 1] bcast_S1x64_S1024x64_0_1),
    binary main_v46 main_v48 main_v49 addf,
    TRef.nullary (TRef.of (T := ⟨S_, .f32⟩) main_call5_cst) (constant S_ .f32 0x00000000#32),
    TRef.unary (TRef.of (T := ⟨S_, .f32⟩) main_call5_cst) (TRef.of (T := ⟨S1024x64, .f32⟩) main_call5_v0) (broadcastInDim S1024x64 ![] bcast_S_S1024x64),
    TRef.binary (TRef.of (T := ⟨S1024x64, .f32⟩) main_v49) (TRef.of (T := ⟨S1024x64, .f32⟩) main_call5_v0) (TRef.of (T := ⟨S1024x64, .f32⟩) main_v50) maximumf,
    unary main_arg12 main_v51 (transpose S64x10 [1, 0] · transposes_S10x64_S64x10_1_0),
    binary main_v50 main_v51 main_v52 (fun l r => Host.dotGeneral dot_S1024x64_S64x10_S1024x10_1_0_0_1_n_n none l r),
    unary main_arg13 main_v53 (broadcastInDim S1x10 ![1] bcast_S10_S1x10_1),
    unary main_v53 main_v54 (broadcastInDim S1024x10 ![0, 1] bcast_S1x10_S1024x10_0_1),
    binary main_v52 main_v54 main_v55 addf,
    binary main_arg1 main_arg0 main_v56 subf,
    nullary main_cst_1 (constant S_ .f32 0x3DCCCCCD#32),
    unary main_cst_1 main_v57 (broadcastInDim S1024x10 ![] bcast_S_S1024x10),
    binary main_v56 main_v57 main_v58 Host.divf,
    binary main_v55 main_v58 main_v59 addf ]

/-- The fourteen argument buffers. -/
abbrev args : List (Ref sig .tc) := [main_arg0, main_arg1, main_arg2, main_arg3, main_arg4, main_arg5, main_arg6, main_arg7, main_arg8, main_arg9, main_arg10, main_arg11, main_arg12, main_arg13]

/-- An operation whose one written buffer is no argument writes no argument. -/
theorem not_writes {y : Ref sig .tc} (hy : y ∉ args) {op : HloOp τ sig (Elt F)} (hw : op.writes = {(y : DevRef τ sig)}) :
    ∀ b ∈ args, (b : DevRef τ sig) ∉ op.writes := fun b hb h =>
  hy (Proc.devRef_injective _ (Finset.mem_singleton.1 (hw ▸ h)) ▸ hb)

/-- Each operation writes its one result buffer, and no result buffer is an argument. -/
theorem no_arg_written : (opsA ++ opsB ++ opsC : List (HloOp τ sig (Elt F))).Forall fun op =>
    ∀ b ∈ args, (b : DevRef τ sig) ∉ op.writes := by
  and_intros
  all_goals exact not_writes (by decide) rfl

/-- Operations of the program, in any number and order, leave every argument as it was. -/
theorem stable {l : List (HloOp τ sig (Elt F))} (hl : ∀ op ∈ l, op ∈ opsA ++ opsB ++ opsC) {b : Ref sig .tc} (hb : b ∈ args)
    (V : Valuation τ sig (Elt F)) : after l V b = V b :=
  after_of_forall_not_mem l V fun op ho => List.forall_iff_forall_mem.1 no_arg_written op (hl op ho) b hb

/-- `stable` at each of the three stretches. -/
theorem kept : args.Forall fun b : Ref sig .tc => ∀ V : Valuation τ sig (Elt F),
    after opsA V b = V b ∧ after opsB V b = V b ∧ after opsC V b = V b :=
  List.forall_iff_forall_mem.2 fun b hb V =>
    ⟨stable (fun _ h => List.mem_append_left _ (List.mem_append_left _ h)) hb V,
      stable (fun _ h => List.mem_append_left _ (List.mem_append_right _ h)) hb V,
      stable (fun _ h => List.mem_append_right _ h) hb V⟩

set_option maxRecDepth 8192 in
theorem A_v4 (V : Valuation τ sig (Elt F)) :
    after opsA V main_v4 = val_main_v4 (F := F) (V main_arg0) := by
  after_results_simp <;> rfl

set_option maxRecDepth 8192 in
theorem A_v11 (V : Valuation τ sig (Elt F)) : after opsA V main_v11 = val_main_v11 (F := F) := by
  after_results_simp <;> rfl

set_option maxRecDepth 8192 in
theorem B_v30 (V : Valuation τ sig (Elt F)) (h4 : V main_v4 = val_main_v4 (F := F) (V main_arg0))
    (h11 : V main_v11 = val_main_v11 (F := F)) :
    after opsB V main_v30 = val_main_v30 (F := F) (V main_arg0) (V main_arg2) (V main_arg3) (V main_arg4) (V main_arg5) := by
  after_results_simp
  rw [h4, h11]
  rfl

set_option maxRecDepth 8192 in
theorem B_v31 (V : Valuation τ sig (Elt F)) :
    after opsB V main_v31 = val_main_v31 (F := F) (V main_arg0) (V main_arg1) := by
  after_results_simp <;> rfl

set_option maxRecDepth 8192 in
theorem C_v59 (V : Valuation τ sig (Elt F)) (x2 x3 x4 x5)
    (h30 : V main_v30 = val_main_v30 (F := F) (V main_arg0) x2 x3 x4 x5)
    (h31 : V main_v31 = val_main_v31 (F := F) (V main_arg0) (V main_arg1)) :
    after opsC V main_v59
      = val_main_v59 (F := F) (V main_arg0) (V main_arg1) x2 x3 x4 x5 (V main_arg6) (V main_arg7) (V main_arg8) (V main_arg9) (V main_arg10) (V main_arg11) (V main_arg12) (V main_arg13) := by
  after_results_simp
  rw [h30, h31]
  rfl

/-- The three stretches chained: each reads the joins' operands from the stretch before and its arguments unchanged. -/
theorem after_v59 (V : Valuation τ sig (Elt F)) :
    after (opsA ++ opsB ++ opsC) V main_v59 = val_main_v59 (F := F) (V main_arg0) (V main_arg1) (V main_arg2) (V main_arg3) (V main_arg4) (V main_arg5) (V main_arg6) (V main_arg7) (V main_arg8) (V main_arg9) (V main_arg10) (V main_arg11) (V main_arg12) (V main_arg13) := by
  have k := kept (F := F); simp only [List.Forall] at k
  have h30 := B_v30 (after opsA V); have h31 := B_v31 (after opsA V); have h59 := C_v59 (after opsB (after opsA V))
  simp only [k] at h30 h31 h59
  rw [after_append, after_append]
  exact h59 _ _ _ _ (h30 (A_v4 V) (A_v11 V)) h31

set_option maxRecDepth 8192 in
set_option maxHeartbeats 4000000 in
theorem main_eq (c : Dev nD) : main (F := F) c = seq (opsA ++ opsB ++ opsC) := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (opsA ++ opsB ++ opsC : List (HloOp τ sig (Elt F))).Forall fun op => op.bufs ⊆ tcRefs τ sig := by
  simp only [List.cons_append, List.nil_append, List.Forall, unary_bufs_sub, binary_bufs_sub, nullary_bufs_sub, and_self]

set_option maxRecDepth 8192 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c main_v59).trans (after_v59 (launchContents m c)),
      show args.Forall fun b => r.2.mem ((c.tc : Thread nD τ).loc b) = m ((c.tc : Thread nD τ).loc b) from
        List.forall_iff_forall_mem.2 fun b hb => (h c b).trans (stable (fun _ h => h) hb (launchContents m c))⟩)
    (run_seq scopedRefs_eq scopedSems_eq defs main (fun _ => opsA ++ opsB ++ opsC) main_eq (fun _ => ops_sub) m ρ)

end Cert.RefRunCut

end
-- ==== Proof.RefIsG.lean ====
import proofs.«132723_j7645041786903_1_alg».proof.Proof.RefRead
import proofs.«132723_j7645041786903_1_alg».proof.Proof.SpecArr
import proofs.«132723_j7645041786903_1_alg».proof.Proof.MathLaws
import Idealize.ShloMosaic.Lib.ValueIdx
import Idealize.ShloMosaic.Lib.Pipeline.Value
import Idealize.ShloMosaic.PureOps.Ideal.Laws
import Idealize.ShloMosaic.PureOps.Reduce

noncomputable section

namespace Cert.RefVal

open Cert.ReferenceIdeal Cert.ReferenceIdeal.ReadP Idealize.ShloMosaic Idealize.ShloMosaic.ValueIdx
open Cert.Spec (rows1 rows2)

abbrev Arr (s : Shape) : Type := (⟨s, .f32⟩ : BufTy).Contents (Elt Ideal)

local macro "ix_ext1" : tactic =>
  `(tactic| exact funext fun a => Fin.ext (by match a with | ⟨0, _⟩ => rfl))
local macro "ix_ext2" : tactic =>
  `(tactic| exact funext fun a => Fin.ext (by match a with | ⟨0, _⟩ => rfl | ⟨1, _⟩ => rfl))
local macro "ix_ext3" : tactic =>
  `(tactic| exact funext fun a => Fin.ext (by match a with | ⟨0, _⟩ => rfl | ⟨1, _⟩ => rfl | ⟨2, _⟩ => rfl))

theorem uitofp_ofBool (b : Bool) : (FloatOps.uitofp (F := Ideal) .f32 (BitVec.ofBool b) : EReal) = if b then 1 else 0 := by
  cases b
  · show (((BitVec.ofBool false).toNat : ℝ) : EReal) = _
    simp
  · show (((BitVec.ofBool true).toNat : ℝ) : EReal) = _
    simp

theorem uitofp_olt (a b : EReal) :
    (FloatOps.uitofp (F := Ideal) .f32 (FloatOps.cmpf (F := Ideal) (φ := .f32) .olt a b) : EReal) = if a < b then 1 else 0 := by
  rw [Ideal.cmpf_def]
  show (FloatOps.uitofp (F := Ideal) .f32 (BitVec.ofBool (decide (a < b))) : EReal) = _
  rw [uitofp_ofBool]
  by_cases h : a < b
  · simp [h]
  · simp [h]

theorem uitofp_diag (i j : Fin 1024) :
    (FloatOps.uitofp (F := Ideal) .f32 (IntOp.cmpi .eq (IntOp.addi (BitVec.ofNat 32 i.val) 0#32) (BitVec.ofNat 32 j.val)) : EReal)
      = if i = j then 1 else 0 := by
  have hi := i.isLt
  have hj := j.isLt
  show (FloatOps.uitofp (F := Ideal) .f32 (BitVec.ofBool (BitVec.ofNat 32 i.val + 0#32 == BitVec.ofNat 32 j.val)) : EReal) = _
  rw [uitofp_ofBool, BitVec.add_zero]
  by_cases h : i = j
  · subst h; simp
  · have hne : BitVec.ofNat 32 i.val ≠ BitVec.ofNat 32 j.val := fun e => h (Fin.ext (by
      have := congrArg BitVec.toNat e
      simp only [BitVec.toNat_ofNat] at this
      omega))
    simp [h, hne]

theorem diag_apply (i j : Fin 1024) : val_main_v10 (F := Ideal) (ix2 i j) = if i = j then 1 else 0 := by
  rw [val_main_v10_apply, val_main_v9_apply, val_main_v8_apply, val_main_v5_apply, val_main_v6_apply, val_main_v7_apply,
    val_main_c_apply]
  exact uitofp_diag i j

theorem x_apply (x0 : Arr S1024x10) (i j : Fin 1024) (c : Fin 11) :
    val_main_v12 (F := Ideal) x0 (ix3 i j c)
      = Cert.Spec.feat11 (rows2 x0 i) (rows2 x0 j) (if i = j then 1 else 0) c := by
  unfold val_main_v12 Cert.Spec.feat11
  split
  · next h =>
    refine (concatenate_pair_apply_left (t := S1024x1024x11) (s₁ := S1024x1024x10) (s₂ := S1024x1024x1) (2 : Fin 3) _ _ _
      (ix3 i j c) rfl (ix3 i j (⟨c.val, h⟩ : Fin 10)) (fun b => ?_)).trans ?_
    · match b with
      | ⟨0, _⟩ => rfl
      | ⟨1, _⟩ => rfl
      | ⟨2, _⟩ => rfl
    · rw [val_main_v4_apply, val_main_v2_apply, val_main_v0_apply, val_main_v3_apply, val_main_v1_apply]
      exact congrArg₂ (· - ·) (congrArg x0 (by ix_ext2)) (congrArg x0 (by ix_ext2))
  · next h =>
    have hc := c.isLt
    refine (concatenate_pair_apply_right (t := S1024x1024x11) (s₁ := S1024x1024x10) (s₂ := S1024x1024x1) (2 : Fin 3) _ _ _
      (ix3 i j c) rfl rfl (ix3 i j (0 : Fin 1)) (fun b hb => ?_) ?_).trans ?_
    · match b with
      | ⟨0, _⟩ => rfl
      | ⟨1, _⟩ => rfl
      | ⟨2, _⟩ => exact absurd rfl hb
    · show 0 + 10 = c.val
      omega
    · rw [val_main_v11_apply]
      exact (congrArg (val_main_v10 (F := Ideal)) (by ix_ext2)).trans (diag_apply i j)

theorem dist2_apply (x0 : Arr S1024x10) (i j : Fin 1024) :
    val_main_call0_v1 (F := Ideal) x0 (ix2 i j) = Cert.Spec.dist2 (rows2 x0 i) (rows2 x0 j) := by
  rw [val_main_call0_v1_apply, val_main_call0_cst_apply]
  show Ideal.ofBits .f32 0x00000000#32 + _ = _
  rw [Ideal.ofBits_zero_f32, zero_add]
  unfold Cert.Spec.dist2
  refine Finset.sum_congr rfl fun k _ => ?_
  have hk := k.isLt
  rw [val_main_call0_v0_apply, val_main_v13_apply]
  have ek : idx_main_v13 (idx_main_call0_v1 (ix2 i j) k) = ix3 i j (⟨k.val, by omega⟩ : Fin 11) := by ix_ext3
  rw [ek, x_apply]
  unfold Cert.Spec.feat11
  rw [dif_pos (show k.val < 10 by omega)]
  rfl

theorem mask_apply (x0 : Arr S1024x10) (i j : Fin 1024) :
    val_main_v17 (F := Ideal) x0 (ix3 i j (0 : Fin 1)) = Cert.Spec.near (rows2 x0 i) (rows2 x0 j) := by
  rw [val_main_v17_apply, val_main_v16_apply, val_main_v14_apply, val_main_v15_apply, val_main_cst_apply, val_main_call0_v2_apply]
  have e : idx_main_call0_v2 (ix3 i j (0 : Fin 1)) = ix2 i j := by ix_ext2
  rw [e, dist2_apply]
  show (FloatOps.uitofp (F := Ideal) .f32 (FloatOps.cmpf (F := Ideal) (φ := .f32) .olt
    (Ideal.sqrt (Cert.Spec.dist2 (rows2 x0 i) (rows2 x0 j))) (Ideal.ofBits .f32 0x40000000#32)) : EReal) = _
  rw [uitofp_olt]
  exact Cert.Laws.near_sqrt _ _

theorem lay1_apply (x0 : Arr S1024x10) (x2 : Arr S64x11) (x3 : Arr S64) (i j : Fin 1024) (k : Fin 64) :
    val_main_v22 (F := Ideal) x0 x2 x3 (ix3 i j k)
      = Cert.Spec.lay1 (rows2 x0 i) (rows2 x0 j) (if i = j then 1 else 0) (rows2 x2) (rows1 x3) k := by
  rw [val_main_v22_apply, val_main_v21_apply, val_main_v18_apply, val_main_v20_apply, val_main_v19_apply,
    val_main_call1_v0_apply, val_main_call1_cst_apply]
  unfold Cert.Spec.lay1
  show max ((∑ c : Fin 11, val_main_v12 (F := Ideal) x0 (lidx_main_v18 (ix3 i j k) c) * x2 (ridx_main_v18 (ix3 i j k) c))
      + x3 (idx_main_v19 (idx_main_v20 (ix3 i j k)))) (Ideal.ofBits .f32 0x00000000#32) = _
  rw [Ideal.ofBits_zero_f32]
  refine congrArg (max · 0) (congrArg₂ (· + ·) (Finset.sum_congr rfl fun c _ => ?_) (congrArg x3 (by ix_ext1)))
  have el : lidx_main_v18 (ix3 i j k) c = ix3 i j c := by ix_ext3
  rw [el, x_apply]
  exact congrArg (_ * ·) (congrArg x2 (by ix_ext2))

theorem lay2_apply (x0 : Arr S1024x10) (x2 : Arr S64x11) (x3 : Arr S64) (x4 : Arr S128x64) (x5 : Arr S128) (i j : Fin 1024) (o : Fin 128) :
    val_main_v27 (F := Ideal) x0 x2 x3 x4 x5 (ix3 i j o)
      = Cert.Spec.lay2 (rows2 x0 i) (rows2 x0 j) (if i = j then 1 else 0) (rows2 x2) (rows1 x3) (rows2 x4) (rows1 x5) o := by
  rw [val_main_v27_apply, val_main_v26_apply, val_main_v23_apply, val_main_v25_apply, val_main_v24_apply,
    val_main_call2_v0_apply, val_main_call2_cst_apply]
  unfold Cert.Spec.lay2
  show max ((∑ c : Fin 64, val_main_v22 (F := Ideal) x0 x2 x3 (lidx_main_v23 (ix3 i j o) c) * x4 (ridx_main_v23 (ix3 i j o) c))
      + x5 (idx_main_v24 (idx_main_v25 (ix3 i j o)))) (Ideal.ofBits .f32 0x00000000#32) = _
  rw [Ideal.ofBits_zero_f32]
  refine congrArg (max · 0) (congrArg₂ (· + ·) (Finset.sum_congr rfl fun c _ => ?_) (congrArg x5 (by ix_ext1)))
  have el : lidx_main_v23 (ix3 i j o) c = ix3 i j c := by ix_ext3
  rw [el, lay1_apply]
  exact congrArg (_ * ·) (congrArg x4 (by ix_ext2))

/-- The reference's masked second layer at the pair (i, j) is the specification's. -/
theorem pair_apply (x0 : Arr S1024x10) (x2 : Arr S64x11) (x3 : Arr S64) (x4 : Arr S128x64) (x5 : Arr S128) (i j : Fin 1024) (o : Fin 128) :
    val_main_v29 (F := Ideal) x0 x2 x3 x4 x5 (ix3 i j o)
      = Cert.Spec.pair (rows2 x0 i) (rows2 x0 j) (if i = j then 1 else 0) (rows2 x2) (rows1 x3) (rows2 x4) (rows1 x5) o := by
  rw [val_main_v29_apply, val_main_v28_apply, lay2_apply]
  have e : idx_main_v28 (ix3 i j o) = ix3 i j (0 : Fin 1) := by ix_ext3
  rw [e, mask_apply]
  rfl

theorem ofBits_negInf : Ideal.ofBits .f32 0xFF800000#32 = ⊥ := by simp [Ideal.ofBits, Ideal.ieee]

/-- Its maximum over partners, started from minus infinity, is the specification's supremum. -/
theorem pooled_apply (x0 : Arr S1024x10) (x2 : Arr S64x11) (x3 : Arr S64) (x4 : Arr S128x64) (x5 : Arr S128) (i : Fin 1024) (o : Fin 128) :
    val_main_v30 (F := Ideal) x0 x2 x3 x4 x5 (ix2 i o)
      = Cert.Spec.pooled (rows2 x0) (rows2 x2) (rows1 x3) (rows2 x4) (rows1 x5) i o := by
  have hred : S1024x1024x128.Reduces [(1 : Fin 3)] S1024x128 := by decide
  unfold val_main_v30
  rw [Host.reduce_eq_fold_single FloatOps.maximumf _ _ _ hred Gen.h_S_]
  rw [val_main_cst_0_apply]
  show (Finset.univ : Finset (Fin 1024)).fold max (Ideal.ofBits .f32 0xFF800000#32)
      (fun j => val_main_v29 (F := Ideal) x0 x2 x3 x4 x5 (hred.lift (ix2 i o) j)) = _
  rw [ofBits_negInf]
  have e : (fun j : Fin 1024 => val_main_v29 (F := Ideal) x0 x2 x3 x4 x5 (hred.lift (ix2 i o) j))
      = fun j => Cert.Spec.pair (rows2 x0 i) (rows2 x0 j) (if i = j then 1 else 0) (rows2 x2) (rows1 x3) (rows2 x4) (rows1 x5) o :=
    funext fun j => (congrArg (val_main_v29 (F := Ideal) x0 x2 x3 x4 x5) (by ix_ext3)).trans (pair_apply x0 x2 x3 x4 x5 i j o)
  exact (congrArg (fun f : Fin 1024 → EReal => (Finset.univ : Finset (Fin 1024)).fold max ⊥ f) e).trans rfl

theorem feat138_apply (x0 x1 : Arr S1024x10) (x2 : Arr S64x11) (x3 : Arr S64) (x4 : Arr S128x64) (x5 : Arr S128) (i : Fin 1024) (c : Fin 138) :
    val_main_v32 (F := Ideal) x0 x1 x2 x3 x4 x5 (ix2 i c)
      = Cert.Spec.feat138 (Cert.Spec.pooled (rows2 x0) (rows2 x2) (rows1 x3) (rows2 x4) (rows1 x5) i) (rows2 x0 i) (rows2 x1 i) c := by
  unfold val_main_v32 Cert.Spec.feat138
  split
  · next h =>
    refine (concatenate_pair_apply_left (t := S1024x138) (s₁ := S1024x128) (s₂ := S1024x10) (1 : Fin 2) _ _ _
      (ix2 i c) rfl (ix2 i (⟨c.val, h⟩ : Fin 128)) (fun b => ?_)).trans ?_
    · match b with
      | ⟨0, _⟩ => rfl
      | ⟨1, _⟩ => rfl
    · exact pooled_apply x0 x2 x3 x4 x5 i _
  · next h =>
    have hc := c.isLt
    refine (concatenate_pair_apply_right (t := S1024x138) (s₁ := S1024x128) (s₂ := S1024x10) (1 : Fin 2) _ _ _
      (ix2 i c) rfl rfl (ix2 i (⟨c.val - 128, by omega⟩ : Fin 10)) (fun b hb => ?_) ?_).trans ?_
    · match b with
      | ⟨0, _⟩ => rfl
      | ⟨1, _⟩ => exact absurd rfl hb
    · show c.val - 128 + 128 = c.val
      omega
    · rfl

def hy1 (x0 x1 : Arr S1024x10) (x2 : Arr S64x11) (x3 : Arr S64) (x4 : Arr S128x64) (x5 : Arr S128) (x6 : Arr S64x138) (x7 : Arr S64)
    (i : Fin 1024) : Fin 64 → EReal := fun k =>
  max ((∑ c : Fin 138, Cert.Spec.feat138 (Cert.Spec.pooled (rows2 x0) (rows2 x2) (rows1 x3) (rows2 x4) (rows1 x5) i) (rows2 x0 i) (rows2 x1 i) c
    * rows2 x6 k c) + rows1 x7 k) 0

def hy2 (x0 x1 : Arr S1024x10) (x2 : Arr S64x11) (x3 : Arr S64) (x4 : Arr S128x64) (x5 : Arr S128) (x6 : Arr S64x138) (x7 : Arr S64)
    (x8 : Arr S128x64) (x9 : Arr S128) (i : Fin 1024) : Fin 128 → EReal := fun k =>
  max ((∑ c : Fin 64, hy1 x0 x1 x2 x3 x4 x5 x6 x7 i c * rows2 x8 k c) + rows1 x9 k) 0

def hy3 (x0 x1 : Arr S1024x10) (x2 : Arr S64x11) (x3 : Arr S64) (x4 : Arr S128x64) (x5 : Arr S128) (x6 : Arr S64x138) (x7 : Arr S64)
    (x8 : Arr S128x64) (x9 : Arr S128) (x10 : Arr S64x128) (x11 : Arr S64) (i : Fin 1024) : Fin 64 → EReal := fun k =>
  max ((∑ c : Fin 128, hy2 x0 x1 x2 x3 x4 x5 x6 x7 x8 x9 i c * rows2 x10 k c) + rows1 x11 k) 0

theorem h1_apply (x0 x1 : Arr S1024x10) (x2 : Arr S64x11) (x3 : Arr S64) (x4 : Arr S128x64) (x5 : Arr S128) (x6 : Arr S64x138) (x7 : Arr S64)
    (i : Fin 1024) (k : Fin 64) :
    val_main_v38 (F := Ideal) x0 x1 x2 x3 x4 x5 x6 x7 (ix2 i k) = hy1 x0 x1 x2 x3 x4 x5 x6 x7 i k := by
  rw [val_main_v38_apply, val_main_v37_apply, val_main_v34_apply, val_main_v36_apply, val_main_v35_apply,
    val_main_call3_v0_apply, val_main_call3_cst_apply]
  unfold hy1
  show max ((∑ c : Fin 138, val_main_v32 (F := Ideal) x0 x1 x2 x3 x4 x5 (lidx_main_v34 (ix2 i k) c)
        * val_main_v33 (F := Ideal) x6 (ridx_main_v34 (ix2 i k) c))
      + x7 (idx_main_v35 (idx_main_v36 (ix2 i k)))) (Ideal.ofBits .f32 0x00000000#32) = _
  rw [Ideal.ofBits_zero_f32]
  refine congrArg (max · 0) (congrArg₂ (· + ·) (Finset.sum_congr rfl fun c _ => ?_) (congrArg x7 (by ix_ext1)))
  have el : lidx_main_v34 (ix2 i k) c = ix2 i c := by ix_ext2
  rw [el, feat138_apply, val_main_v33_apply]
  exact congrArg (_ * ·) (congrArg x6 (by ix_ext2))

theorem h2_apply (x0 x1 : Arr S1024x10) (x2 : Arr S64x11) (x3 : Arr S64) (x4 : Arr S128x64) (x5 : Arr S128) (x6 : Arr S64x138) (x7 : Arr S64)
    (x8 : Arr S128x64) (x9 : Arr S128) (i : Fin 1024) (k : Fin 128) :
    val_main_v44 (F := Ideal) x0 x1 x2 x3 x4 x5 x6 x7 x8 x9 (ix2 i k) = hy2 x0 x1 x2 x3 x4 x5 x6 x7 x8 x9 i k := by
  rw [val_main_v44_apply, val_main_v43_apply, val_main_v40_apply, val_main_v42_apply, val_main_v41_apply,
    val_main_call4_v0_apply, val_main_call4_cst_apply]
  unfold hy2
  show max ((∑ c : Fin 64, val_main_v38 (F := Ideal) x0 x1 x2 x3 x4 x5 x6 x7 (lidx_main_v40 (ix2 i k) c)
        * val_main_v39 (F := Ideal) x8 (ridx_main_v40 (ix2 i k) c))
      + x9 (idx_main_v41 (idx_main_v42 (ix2 i k)))) (Ideal.ofBits .f32 0x00000000#32) = _
  rw [Ideal.ofBits_zero_f32]
  refine congrArg (max · 0) (congrArg₂ (· + ·) (Finset.sum_congr rfl fun c _ => ?_) (congrArg x9 (by ix_ext1)))
  have el : lidx_main_v40 (ix2 i k) c = ix2 i c := by ix_ext2
  rw [el, h1_apply, val_main_v39_apply]
  exact congrArg (_ * ·) (congrArg x8 (by ix_ext2))

theorem h3_apply (x0 x1 : Arr S1024x10) (x2 : Arr S64x11) (x3 : Arr S64) (x4 : Arr S128x64) (x5 : Arr S128) (x6 : Arr S64x138) (x7 : Arr S64)
    (x8 : Arr S128x64) (x9 : Arr S128) (x10 : Arr S64x128) (x11 : Arr S64) (i : Fin 1024) (k : Fin 64) :
    val_main_v50 (F := Ideal) x0 x1 x2 x3 x4 x5 x6 x7 x8 x9 x10 x11 (ix2 i k) = hy3 x0 x1 x2 x3 x4 x5 x6 x7 x8 x9 x10 x11 i k := by
  rw [val_main_v50_apply, val_main_v49_apply, val_main_v46_apply, val_main_v48_apply, val_main_v47_apply,
    val_main_call5_v0_apply, val_main_call5_cst_apply]
  unfold hy3
  show max ((∑ c : Fin 128, val_main_v44 (F := Ideal) x0 x1 x2 x3 x4 x5 x6 x7 x8 x9 (lidx_main_v46 (ix2 i k) c)
        * val_main_v45 (F := Ideal) x10 (ridx_main_v46 (ix2 i k) c))
      + x11 (idx_main_v47 (idx_main_v48 (ix2 i k)))) (Ideal.ofBits .f32 0x00000000#32) = _
  rw [Ideal.ofBits_zero_f32]
  refine congrArg (max · 0) (congrArg₂ (· + ·) (Finset.sum_congr rfl fun c _ => ?_) (congrArg x11 (by ix_ext1)))
  have el : lidx_main_v46 (ix2 i k) c = ix2 i c := by ix_ext2
  rw [el, h2_apply, val_main_v45_apply]
  exact congrArg (_ * ·) (congrArg x10 (by ix_ext2))

theorem out_apply (x0 x1 : Arr S1024x10) (x2 : Arr S64x11) (x3 : Arr S64) (x4 : Arr S128x64) (x5 : Arr S128) (x6 : Arr S64x138) (x7 : Arr S64)
    (x8 : Arr S128x64) (x9 : Arr S128) (x10 : Arr S64x128) (x11 : Arr S64) (x12 : Arr S10x64) (x13 : Arr S10) (i : Fin 1024) (o : Fin 10) :
    val_main_v59 (F := Ideal) x0 x1 x2 x3 x4 x5 x6 x7 x8 x9 x10 x11 x12 x13 (ix2 i o)
      = ((∑ c : Fin 64, hy3 x0 x1 x2 x3 x4 x5 x6 x7 x8 x9 x10 x11 i c * rows2 x12 o c) + rows1 x13 o)
        + Ideal.div (rows2 x1 i o - rows2 x0 i o) Cert.Spec.tenth := by
  rw [val_main_v59_apply, val_main_v55_apply, val_main_v52_apply, val_main_v54_apply, val_main_v53_apply,
    val_main_v58_apply, val_main_v56_apply, val_main_v57_apply, val_main_cst_1_apply]
  show ((∑ c : Fin 64, val_main_v50 (F := Ideal) x0 x1 x2 x3 x4 x5 x6 x7 x8 x9 x10 x11 (lidx_main_v52 (ix2 i o) c)
        * val_main_v51 (F := Ideal) x12 (ridx_main_v52 (ix2 i o) c))
      + x13 (idx_main_v53 (idx_main_v54 (ix2 i o))))
      + Ideal.div (x1 (ix2 i o) - x0 (ix2 i o)) (Ideal.ofBits .f32 0x3DCCCCCD#32) = _
  refine congrArg (· + Ideal.div (x1 (ix2 i o) - x0 (ix2 i o)) (Ideal.ofBits .f32 0x3DCCCCCD#32))
    (congrArg₂ (· + ·) (Finset.sum_congr rfl fun c _ => ?_) (congrArg x13 (by ix_ext1)))
  have el : lidx_main_v52 (ix2 i o) c = ix2 i c := by ix_ext2
  rw [el, h3_apply, val_main_v51_apply]
  exact congrArg (_ * ·) (congrArg x12 (by ix_ext2))

/-- The reference's composed stages are the specification, entry by entry. -/
theorem ref_is_G (x0 x1 : (⟨S1024x10, .f32⟩ : BufTy).Contents (Elt Ideal)) (x2 : (⟨S64x11, .f32⟩ : BufTy).Contents (Elt Ideal)) (x3 : (⟨S64, .f32⟩ : BufTy).Contents (Elt Ideal)) (x4 : (⟨S128x64, .f32⟩ : BufTy).Contents (Elt Ideal)) (x5 : (⟨S128, .f32⟩ : BufTy).Contents (Elt Ideal)) (x6 : (⟨S64x138, .f32⟩ : BufTy).Contents (Elt Ideal)) (x7 : (⟨S64, .f32⟩ : BufTy).Contents (Elt Ideal)) (x8 : (⟨S128x64, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S10x64, .f32⟩ : BufTy).Contents (Elt Ideal)) (x13 : (⟨S10, .f32⟩ : BufTy).Contents (Elt Ideal)) :
    Cert.ReferenceIdeal.ReadP.val_main_v59 (F := Ideal) x0 x1 x2 x3 x4 x5 x6 x7 x8 x9 x10 x11 x12 x13 = Cert.Spec.Gof x0 x1 x2 x3 x4 x5 x6 x7 x8 x9 x10 x11 x12 x13 := by
  funext idx
  obtain ⟨i, o, rfl⟩ : ∃ (i : Fin 1024) (o : Fin 10), idx = ix2 i o := ⟨idx 0, idx 1, eq_ix2 idx⟩
  rw [Cert.Spec.Gof_ix2, out_apply]
  rfl

end Cert.RefVal

end
-- ==== Proof.RefVal.lean ====
import proofs.«132723_j7645041786903_1_alg».proof.Proof.RefRunCut
import proofs.«132723_j7645041786903_1_alg».proof.Proof.RefIsG

noncomputable section

namespace Cert.RefVal

open Cert.ReferenceIdeal Cert.ReferenceIdeal.Gen Idealize.ShloMosaic Idealize.ShloMosaic.TcCoe Idealize.SL.Sem

/-- Every run of the reference ends with the result at the specification of the arguments, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v59) = Cert.Spec.Gof (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono (fun _ h c => ⟨(h c).1.trans (ref_is_G _ _ _ _ _ _ _ _ _ _ _ _ _ _), (h c).2⟩)
    (Cert.RefRunCut.run (F := Ideal) m ρ)

end Cert.RefVal

end
-- ==== Proof.lean ====
import proofs.«132723_j7645041786903_1_alg».proof.Defs
import proofs.«132723_j7645041786903_1_alg».proof.Proof.Gen.Kernel
import proofs.«132723_j7645041786903_1_alg».proof.Proof.Gen.KernelIdeal
import proofs.«132723_j7645041786903_1_alg».proof.Proof.Gen.ReferenceIdeal
import proofs.«132723_j7645041786903_1_alg».proof.Proof.Gen.Pre_finite_inputs
import proofs.«132723_j7645041786903_1_alg».proof.Proof.KB.Frame
import proofs.«132723_j7645041786903_1_alg».proof.Proof.KI.Frame
import proofs.«132723_j7645041786903_1_alg».proof.Proof.KFinal
import proofs.«132723_j7645041786903_1_alg».proof.Proof.RefVal
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => Cert.Kernel.Fr.kept m h c) (Cert.Kernel.Fr.run_main m ρ)

theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => Cert.KernelIdeal.Fr.kept m h c) (Cert.KernelIdeal.Fr.run_main m ρ)

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.RefVal.ref_run m ρ)

/-- Both programs end with the result at the specification of the arguments, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KVal.Gres m c, (θ_run (Cert.KernelIdeal.defs (F := Ideal)) _ _).mono (fun _ h c =>
    ⟨((h c).1 15).trans (Cert.KVal.final m c), Cert.KernelIdeal.Fr.kept m h c⟩) (Cert.KernelIdeal.Fr.run_main m ρ), ?_⟩
  refine (θ_run (Cert.ReferenceIdeal.defs (F := Ideal)) _ _).mono (fun _ h c => ⟨(h c).1.trans ?_, (h c).2⟩) (Cert.RefVal.ref_run m' ρ')
  obtain ⟨h0, h1, h2, h3, h4, h5, h6, h7, h8, h9, h10, h11, h12, h13⟩ := hagree c
  rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
